-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S150000x128 : Shape := ⟨2, ![150000, 128]⟩
abbrev S8x150000 : Shape := ⟨2, ![8, 150000]⟩
abbrev S8x128x128 : Shape := ⟨3, ![8, 128, 128]⟩
abbrev S128 : Shape := ⟨1, ![128]⟩
abbrev S256x128 : Shape := ⟨2, ![256, 128]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S8x150000 : S_.BroadcastsInDim S8x150000 (![] : Fin 0 → Fin S8x150000.rank)
  reducesTo_S8x150000_S_d0_1 : S8x150000.ReducesTo [0, 1] S_

variable [Facts]

def fn_part4 {F : FTy → Type} [FloatOps F] (main_v63 : IVec S_ 1) (main_v65 : IVec S8x150000 1) (main_v67 : IVec S8x150000 1) : IVec S_ 1 :=
  let main_v68 : IVec S8x150000 1 := andi main_v65 main_v67
  let main_c_26 : IVec S_ 1 := constantI S_ 1 1#1
  let main_v69 : IVec S_ 1 := (fun x v => Host.reduce IntOp.andi x v reducesTo_S8x150000_S_d0_1 h_S_) main_v68 main_c_26
  let main_v70 : IVec S_ 1 := andi main_v63 main_v69
  main_v70

def fn_part3 {F : FTy → Type} [FloatOps F] (main_arg2 : IVec S8x150000 32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S8x150000 32 := broadcastInDim S8x150000 ![] bcast_S_S8x150000 main_c_24
  let main_v65 : IVec S8x150000 1 := cmpi .sge main_arg2 main_v64
  let main_c_25 : IVec S_ 32 := constantI S_ 32 40000#32
  let main_v66 : IVec S8x150000 32 := broadcastInDim S8x150000 ![] bcast_S_S8x150000 main_c_25
  let main_v67 : IVec S8x150000 1 := cmpi .slt main_arg2 main_v66
  fn_part4 (F := F) main_v63 main_v65 main_v67

def fn_part2 {F : FTy → Type} [FloatOps F] (main_arg2 : IVec S8x150000 32) (main_arg9 : FVec F S128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_v48 main_v49 main_v50

def fn_part1 {F : FTy → Type} [FloatOps F] (main_arg2 : IVec S8x150000 32) (main_arg6 : FVec F S128 .f32) (main_arg7 : FVec F S256x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S40000x128 .f32) (main_arg1 : FVec F S150000x128 .f32) (main_arg2 : IVec S8x150000 32) (main_arg3 : IVec S8x150000 32) (main_arg4 : FVec F S8x128x128 .f32) (main_arg5 : FVec F S128 .f32) (main_arg6 : FVec F S128 .f32) (main_arg7 : FVec F S256x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S150000x128 .f32 := Host.absf main_arg1
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_v13 main_v16
-- ==== Kernel.lean ====
abbrev S40000x128 : Shape := ⟨2, ![40000, 128]⟩
abbrev S150000x128 : Shape := ⟨2, ![150000, 128]⟩
abbrev S8x150000 : Shape := ⟨2, ![8, 150000]⟩
abbrev S8x128x128 : Shape := ⟨3, ![8, 128, 128]⟩
abbrev S128 : Shape := ⟨1, ![128]⟩
abbrev S256x128 : Shape := ⟨2, ![256, 128]⟩
abbrev S128x128 : Shape := ⟨2, ![128, 128]⟩
abbrev S8x40000x128 : Shape := ⟨3, ![8, 40000, 128]⟩
abbrev S10000x128 : Shape := ⟨2, ![10000, 128]⟩
abbrev S1x128x128 : Shape := ⟨3, ![1, 128, 128]⟩
abbrev S1x10000x128 : Shape := ⟨3, ![1, 10000, 128]⟩
abbrev S_ : Shape := ⟨0, ![]⟩
abbrev S8x150000x1 : Shape := ⟨3, ![8, 150000, 1]⟩
abbrev S1 : Shape := ⟨1, ![1]⟩
abbrev S1x1x1 : Shape := ⟨3, ![1, 1, 1]⟩
abbrev S8x150000x128 : Shape := ⟨3, ![8, 150000, 128]⟩
abbrev S1200000 : Shape := ⟨1, ![1200000]⟩
abbrev S1200000x128 : Shape := ⟨2, ![1200000, 128]⟩
abbrev S1200000x1 : Shape := ⟨2, ![1200000, 1]⟩
abbrev S1x128 : Shape := ⟨2, ![1, 128]⟩

abbrev nBuf : Space → Nat
  | .hbm => 108
  | .vmem => 49
  | .smem => 0
  | _ => 0

abbrev bufTy : (tb : Table) → Fin (tcTables nBuf tb) → BufTy
  | .hbm, ⟨0, _⟩ => ⟨S40000x128, .f32⟩
  | .hbm, ⟨1, _⟩ => ⟨S150000x128, .f32⟩
  | .hbm, ⟨2, _⟩ => ⟨S8x150000, .i32⟩
  | .hbm, ⟨3, _⟩ => ⟨S8x150000, .i32⟩
  | .hbm, ⟨4, _⟩ => ⟨S8x128x128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S8x40000x128, .f32⟩
  | .hbm, ⟨16, _⟩ => ⟨S_, .i32⟩
  | .hbm, ⟨17, _⟩ => ⟨S8x150000, .i32⟩
  | .hbm, ⟨18, _⟩ => ⟨S8x150000, .i1⟩
  | .hbm, ⟨19, _⟩ => ⟨S_, .i32⟩
  | .hbm, ⟨20, _⟩ => ⟨S8x150000, .i32⟩
  | .hbm, ⟨21, _⟩ => ⟨S8x150000, .i32⟩
  | .hbm, ⟨22, _⟩ => ⟨S8x150000, .i32⟩
  | .hbm, ⟨23, _⟩ => ⟨S8x150000x1, .i32⟩
  | .hbm, ⟨24, _⟩ => ⟨S1, .i32⟩
  | .hbm, ⟨25, _⟩ => ⟨S_, .i32⟩
  | .hbm, ⟨26, _⟩ => ⟨S8x150000x1, .i32⟩
  | .hbm, ⟨27, _⟩ => ⟨S8x150000x1, .i1⟩
  | .hbm, ⟨28, _⟩ => ⟨S1x1x1, .i32⟩
  | .hbm, ⟨29, _⟩ => ⟨S8x150000x1, .i32⟩
  | .hbm, ⟨30, _⟩ => ⟨S8x150000x1, .i1⟩
  | .hbm, ⟨31, _⟩ => ⟨S8x150000x1, .i1⟩
  | .hbm, ⟨32, _⟩ => ⟨S_, .i1⟩
  | .hbm, ⟨33, _⟩ => ⟨S8x150000, .i1⟩
  | .hbm, ⟨34, _⟩ => ⟨S8x150000x128, .f32⟩
  | .hbm, ⟨35, _⟩ => ⟨S8x150000x128, .i1⟩
  | .hbm, ⟨36, _⟩ => ⟨S_, .f32⟩
  | .hbm, ⟨37, _⟩ => ⟨S8x150000x128, .f32⟩
  | .hbm, ⟨38, _⟩ => ⟨S8x150000x128, .f32⟩
  | .hbm, ⟨39, _⟩ => ⟨S1200000, .i32⟩
  | .hbm, ⟨40, _⟩ => ⟨S1200000x128, .f32⟩
  | .hbm, ⟨41, _⟩ => ⟨S_, .f32⟩
  | .hbm, ⟨42, _⟩ => ⟨S150000x128, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S150000x128, .f32⟩
  | .hbm, ⟨52, _⟩ => ⟨S1x128, .f32⟩
  | .hbm, ⟨53, _⟩ => ⟨S1x128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S150000x128, .f32⟩
  | .hbm, ⟨72, _⟩ => ⟨S150000x128, .f32⟩
  | .hbm, ⟨73, _⟩ => ⟨S1x128, .f32⟩
  | .hbm, ⟨74, _⟩ => ⟨S1x128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S150000x128, .f32⟩
  | .hbm, ⟨91, _⟩ => ⟨S1x128, .f32⟩
  | .hbm, ⟨92, _⟩ => ⟨S1x128, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S150000x128, .f32⟩
  | .local _ .vmem, ⟨0, _⟩ => ⟨S10000x128, .f32⟩
  | .local _ .vmem, ⟨1, _⟩ => ⟨S10000x128, .f32⟩
  | .local _ .vmem, ⟨2, _⟩ => ⟨S1x128x128, .f32⟩
  | .local _ .vmem, ⟨3, _⟩ => ⟨S1x128x128, .f32⟩
  | .local _ .vmem, ⟨4, _⟩ => ⟨S1x10000x128, .f32⟩
  | .local _ .vmem, ⟨5, _⟩ => ⟨S1x10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S1x128, .f32⟩
  | .local _ .vmem, ⟨26, _⟩ => ⟨S1x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S10000x128, .f32⟩
  | .local _ .vmem, ⟨36, _⟩ => ⟨S10000x128, .f32⟩
  | .local _ .vmem, ⟨37, _⟩ => ⟨S1x128, .f32⟩
  | .local _ .vmem, ⟨38, _⟩ => ⟨S1x128, .f32⟩
  | .local _ .vmem, ⟨39, _⟩ => ⟨S10000x128, .f32⟩
  | .local _ .vmem, ⟨40, _⟩ => ⟨S10000x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_c_0 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12_0 : Ref sig .tc := ⟨.hbm, 52, rfl⟩
abbrev main_v12_1 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev main_v28_2 : Ref sig .tc := ⟨.hbm, 73, rfl⟩
abbrev main_v28_3 : Ref sig .tc := ⟨.hbm, 74, rfl⟩
abbrev main_v29 : Ref sig .tc := ⟨.hbm, 75, rfl⟩
abbrev main_cst_3 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_4 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42_0 : Ref sig .tc := ⟨.hbm, 90, rfl⟩
abbrev main_v42_1 : Ref sig .tc := ⟨.hbm, 91, rfl⟩
abbrev main_v42_2 : Ref sig .tc := ⟨.hbm, 92, rfl⟩
abbrev main_v43 : Ref sig .tc := ⟨.hbm, 93, rfl⟩
abbrev main_cst_5 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_6 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc2_stg10_0 : Ref sig .tc := ⟨.vmem, 23, rfl⟩
abbrev cc2_stg10_1 : Ref sig .tc := ⟨.vmem, 24, rfl⟩
abbrev cc2_stg11_0 : Ref sig .tc := ⟨.vmem, 25, rfl⟩
abbrev cc2_stg12_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc3_stg8_0 : Ref sig .tc := ⟨.vmem, 37, rfl⟩
abbrev cc3_stg9_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem9_1 : DmaSem sig := 22
abbrev cc2_sem10_0 : DmaSem sig := 23
abbrev cc2_sem10_1 : DmaSem sig := 24
abbrev cc2_sem11_0 : DmaSem sig := 25
abbrev cc2_sem12_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc3_sem8_0 : DmaSem sig := 37
abbrev cc3_sem9_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem6_1 : DmaSem sig := 48

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S10000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S10000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  bcast_S_S8x150000 : S_.BroadcastsInDim S8x150000 (![] : Fin 0 → Fin S8x150000.rank)
  bcast_S8x150000_S8x150000x1_0_1 : S8x150000.BroadcastsInDim S8x150000x1 (![0, 1] : Fin 2 → Fin S8x150000x1.rank)
  bcast_S_S8x150000x1 : S_.BroadcastsInDim S8x150000x1 (![] : Fin 0 → Fin S8x150000x1.rank)
  bcast_S1_S1x1x1_2 : S1.BroadcastsInDim S1x1x1 (![2] : Fin 1 → Fin S1x1x1.rank)
  bcast_S1x1x1_S8x150000x1_0_1_2 : S1x1x1.BroadcastsInDim S8x150000x1 (![0, 1, 2] : Fin 3 → Fin S8x150000x1.rank)
  reducesTo_S8x150000x1_S8x150000_d2 : S8x150000x1.ReducesTo [2] S8x150000
  h_S_ : 0 < S_.numel
  bcast_S8x150000_S8x150000x128_0_1 : S8x150000.BroadcastsInDim S8x150000x128 (![0, 1] : Fin 2 → Fin S8x150000x128.rank)
  bcast_S_S8x150000x128 : S_.BroadcastsInDim S8x150000x128 (![] : Fin 0 → Fin S8x150000x128.rank)
  shapeCasts_S8x150000_S1200000 : S8x150000.ShapeCasts S1200000
  shapeCasts_S8x150000x128_S1200000x128 : S8x150000x128.ShapeCasts S1200000x128
  bcast_S_S150000x128 : S_.BroadcastsInDim S150000x128 (![] : Fin 0 → Fin S150000x128.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  reduces_S10000x128_S128 : S10000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  slices_S256x128_S128x128_0_0 : S256x128.Slices ![0, 0] S128x128
  slices_S256x128_S128x128_128_0 : S256x128.Slices ![128, 0] S128x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S10000x128_S128x128_S10000x128_1_0_0_1_n_n_wf : DotDims.WF S10000x128 S128x128 S10000x128 [1] [0] [0] [1] [] []
  gather_S8x40000x128_S8x150000x1_S8x150000x128_2_1_0_0_1_2_11128_wf : GatherDims.WF S8x40000x128 S8x150000x1 S8x150000x128 [2] [1] [0] [1] [0] 2 ![1, 1, 128]
  scatter_S150000x128_S1200000x1_S1200000x128_1_0_0_1_wf : ScatterDims.WF S150000x128 S1200000x1 S1200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S40000x128.size a
  hwx0_0 : ∀ i : grid0.Coords, EltTy.bits .f32 = 32 ∨ (Rect.block (s := S40000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x128.size a ≤ S8x40000x128.size a
  hwx0_2 : ∀ i : grid0.Coords, EltTy.bits .f32 = 32 ∨ (Rect.block (s := S8x40000x128) S1x10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S150000x128.size a
  hwx1_0 : ∀ i : grid1.Coords, EltTy.bits .f32 = 32 ∨ (Rect.block (s := S150000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S150000x128.size a
  hwx2_0 : ∀ i : grid2.Coords, EltTy.bits .f32 = 32 ∨ (Rect.block (s := S150000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S150000x128.size a
  hwx2_1 : ∀ i : grid2.Coords, EltTy.bits .f32 = 32 ∨ (Rect.block (s := S150000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x128.size a ≤ S150000x128.size a
  hwx2_9 : ∀ i : grid2.Coords, EltTy.bits .f32 = 32 ∨ (Rect.block (s := S150000x128) S10000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x128.size a ≤ S150000x128.size a
  hwx2_10 : ∀ i : grid2.Coords, EltTy.bits .f32 = 32 ∨ (Rect.block (s := S150000x128) S10000x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S150000x128.size a
  hwx3_0 : ∀ i : grid3.Coords, EltTy.bits .f32 = 32 ∨ (Rect.block (s := S150000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S150000x128.size a
  hwx3_7 : ∀ i : grid3.Coords, EltTy.bits .f32 = 32 ∨ (Rect.block (s := S150000x128) S10000x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S150000x128.size a
  hwx4_0 : ∀ i : grid4.Coords, EltTy.bits .f32 = 32 ∨ (Rect.block (s := S150000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S150000x128.size a
  hwx4_5 : ∀ i : grid4.Coords, EltTy.bits .f32 = 32 ∨ (Rect.block (s := S150000x128) S10000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x128.size a ≤ S150000x128.size a
  hwx4_6 : ∀ i : grid4.Coords, EltTy.bits .f32 = 32 ∨ (Rect.block (s := S150000x128) S10000x128.size (cc4_transform_6 i) (hinb4_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S8x40000x128_S8x150000x1_S8x150000x128_2_1_0_0_1_2_11128 : GatherDims S8x40000x128 S8x150000x1 S8x150000x128 where
  offsetDims := [2]
  collapsedSliceDims := [1]
  operandBatchingDims := [0]
  startIndicesBatchingDims := [0]
  startIndexMap := [1]
  indexVectorDim := 2
  sliceSizes := ![1, 1, 128]
  wf := gather_S8x40000x128_S8x150000x1_S8x150000x128_2_1_0_0_1_2_11128_wf
def scatter_S150000x128_S1200000x1_S1200000x128_1_0_0_1 : ScatterDims S150000x128 S1200000x1 S1200000x128 where
  updateWindowDims := [1]
  insertedWindowDims := [0]
  scatterDimsToOperandDims := [0]
  indexVectorDim := 1
  wf := scatter_S150000x128_S1200000x1_S1200000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v27) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v28_0) S10000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v28_1) S10000x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v28_2) S1x128.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v28_3) S1x128.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v28_1) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42_0) S10000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v42_1) S1x128.size cc3_transform_8 reads3_8 true true 1 stage3_8 sem3_8
    hrank3 hreads3_8 hinb3_8 nbuf3_8 (Memref.isWhole_whole _) hwx3_8 hstage3_8

abbrev win3_9 : Pipeline.Window sig grid3 :=
  Pipeline.Window.ofSpec (Memref.whole main_v42_2) S1x128.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v42_0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v28_0) S10000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v55) S10000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S40000x128 : Shape := ⟨2, ![40000, 128]⟩
abbrev S150000x128 : Shape := ⟨2, ![150000, 128]⟩
abbrev S8x150000 : Shape := ⟨2, ![8, 150000]⟩
abbrev S8x128x128 : Shape := ⟨3, ![8, 128, 128]⟩
abbrev S128 : Shape := ⟨1, ![128]⟩
abbrev S256x128 : Shape := ⟨2, ![256, 128]⟩
abbrev S128x128 : Shape := ⟨2, ![128, 128]⟩
abbrev S_ : Shape := ⟨0, ![]⟩
abbrev S1x150000 : Shape := ⟨2, ![1, 150000]⟩
abbrev S150000 : Shape := ⟨1, ![150000]⟩
abbrev S150000x1 : Shape := ⟨2, ![150000, 1]⟩
abbrev S1x128x128 : Shape := ⟨3, ![1, 128, 128]⟩
abbrev S1x128 : Shape := ⟨2, ![1, 128]⟩
abbrev S150000x256 : Shape := ⟨2, ![150000, 256]⟩

abbrev nBuf : Space → Nat
  | .hbm => 326
  | .vmem => 0
  | .smem => 0
  | _ => 0

abbrev hbmTy0_0 (i : Nat) : BufTy := match i % 128 with
  | 0 => ⟨S40000x128, .f32⟩
  | 1 => ⟨S150000x128, .f32⟩
  | 2 => ⟨S8x150000, .i32⟩
  | 3 => ⟨S8x150000, .i32⟩
  | 4 => ⟨S8x128x128, .f32⟩
  | 5 => ⟨S128, .f32⟩
  | 6 => ⟨S128, .f32⟩
  | 7 => ⟨S256x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S_, .f32⟩
  | 16 => ⟨S150000x128, .f32⟩
  | 17 => ⟨S1x150000, .i32⟩
  | 18 => ⟨S150000, .i32⟩
  | 19 => ⟨S_, .i32⟩
  | 20 => ⟨S150000, .i32⟩
  | 21 => ⟨S150000, .i1⟩
  | 22 => ⟨S_, .i32⟩
  | 23 => ⟨S150000, .i32⟩
  | 24 => ⟨S150000, .i32⟩
  | 25 => ⟨S150000, .i32⟩
  | 26 => ⟨S150000x1, .i32⟩
  | 27 => ⟨S150000x128, .f32⟩
  | 28 => ⟨S1x128x128, .f32⟩
  | 29 => ⟨S128x128, .f32⟩
  | 30 => ⟨S150000x128, .f32⟩
  | 31 => ⟨S1x150000, .i32⟩
  | 32 => ⟨S150000, .i32⟩
  | 33 => ⟨S_, .i32⟩
  | 34 => ⟨S150000, .i32⟩
  | 35 => ⟨S150000, .i1⟩
  | 36 => ⟨S_, .i32⟩
  | 37 => ⟨S150000, .i32⟩
  | 38 => ⟨S150000, .i32⟩
  | 39 => ⟨S150000, .i32⟩
  | 40 => ⟨S150000x1, .i32⟩
  | 41 => ⟨S150000x128, .f32⟩
  | 42 => ⟨S1x150000, .i32⟩
  | 43 => ⟨S150000, .i32⟩
  | 44 => ⟨S_, .i32⟩
  | 45 => ⟨S150000, .i32⟩
  | 46 => ⟨S150000, .i1⟩
  | 47 => ⟨S_, .i32⟩
  | 48 => ⟨S150000, .i32⟩
  | 49 => ⟨S150000, .i32⟩
  | 50 => ⟨S150000, .i32⟩
  | 51 => ⟨S150000x1, .i32⟩
  | 52 => ⟨S150000x128, .f32⟩
  | 53 => ⟨S1x128x128, .f32⟩
  | 54 => ⟨S128x128, .f32⟩
  | 55 => ⟨S150000x128, .f32⟩
  | 56 => ⟨S1x150000, .i32⟩
  | 57 => ⟨S150000, .i32⟩
  | 58 => ⟨S_, .i32⟩
  | 59 => ⟨S150000, .i32⟩
  | 60 => ⟨S150000, .i1⟩
  | 61 => ⟨S_, .i32⟩
  | 62 => ⟨S150000, .i32⟩
  | 63 => ⟨S150000, .i32⟩
  | 64 => ⟨S150000, .i32⟩
  | 65 => ⟨S150000x1, .i32⟩
  | 66 => ⟨S150000x128, .f32⟩
  | 67 => ⟨S1x150000, .i32⟩
  | 68 => ⟨S150000, .i32⟩
  | 69 => ⟨S_, .i32⟩
  | 70 => ⟨S150000, .i32⟩
  | 71 => ⟨S150000, .i1⟩
  | 72 => ⟨S_, .i32⟩
  | 73 => ⟨S150000, .i32⟩
  | 74 => ⟨S150000, .i32⟩
  | 75 => ⟨S150000, .i32⟩
  | 76 => ⟨S150000x1, .i32⟩
  | 77 => ⟨S150000x128, .f32⟩
  | 78 => ⟨S1x128x128, .f32⟩
  | 79 => ⟨S128x128, .f32⟩
  | 80 => ⟨S150000x128, .f32⟩
  | 81 => ⟨S1x150000, .i32⟩
  | 82 => ⟨S150000, .i32⟩
  | 83 => ⟨S_, .i32⟩
  | 84 => ⟨S150000, .i32⟩
  | 85 => ⟨S150000, .i1⟩
  | 86 => ⟨S_, .i32⟩
  | 87 => ⟨S150000, .i32⟩
  | 88 => ⟨S150000, .i32⟩
  | 89 => ⟨S150000, .i32⟩
  | 90 => ⟨S150000x1, .i32⟩
  | 91 => ⟨S150000x128, .f32⟩
  | 92 => ⟨S1x150000, .i32⟩
  | 93 => ⟨S150000, .i32⟩
  | 94 => ⟨S_, .i32⟩
  | 95 => ⟨S150000, .i32⟩
  | 96 => ⟨S150000, .i1⟩
  | 97 => ⟨S_, .i32⟩
  | 98 => ⟨S150000, .i32⟩
  | 99 => ⟨S150000, .i32⟩
  | 100 => ⟨S150000, .i32⟩
  | 101 => ⟨S150000x1, .i32⟩
  | 102 => ⟨S150000x128, .f32⟩
  | 103 => ⟨S1x128x128, .f32⟩
  | 104 => ⟨S128x128, .f32⟩
  | 105 => ⟨S150000x128, .f32⟩
  | 106 => ⟨S1x150000, .i32⟩
  | 107 => ⟨S150000, .i32⟩
  | 108 => ⟨S_, .i32⟩
  | 109 => ⟨S150000, .i32⟩
  | 110 => ⟨S150000, .i1⟩
  | 111 => ⟨S_, .i32⟩
  | 112 => ⟨S150000, .i32⟩
  | 113 => ⟨S150000, .i32⟩
  | 114 => ⟨S150000, .i32⟩
  | 115 => ⟨S150000x1, .i32⟩
  | 116 => ⟨S150000x128, .f32⟩
  | 117 => ⟨S1x150000, .i32⟩
  | 118 => ⟨S150000, .i32⟩
  | 119 => ⟨S_, .i32⟩
  | 120 => ⟨S150000, .i32⟩
  | 121 => ⟨S150000, .i1⟩
  | 122 => ⟨S_, .i32⟩
  | 123 => ⟨S150000, .i32⟩
  | 124 => ⟨S150000, .i32⟩
  | 125 => ⟨S150000, .i32⟩
  | 126 => ⟨S150000x1, .i32⟩
  | 127 => ⟨S150000x128, .f32⟩
  | _ => ⟨S40000x128, .f32⟩

abbrev hbmTy0_1 (i : Nat) : BufTy := match i % 128 with
  | 0 => ⟨S1x128x128, .f32⟩
  | 1 => ⟨S128x128, .f32⟩
  | 2 => ⟨S150000x128, .f32⟩
  | 3 => ⟨S1x150000, .i32⟩
  | 4 => ⟨S150000, .i32⟩
  | 5 => ⟨S_, .i32⟩
  | 6 => ⟨S150000, .i32⟩
  | 7 => ⟨S150000, .i1⟩
  | 8 => ⟨S_, .i32⟩
  | 9 => ⟨S150000, .i32⟩
  | 10 => ⟨S150000, .i32⟩
  | 11 => ⟨S150000, .i32⟩
  | 12 => ⟨S150000x1, .i32⟩
  | 13 => ⟨S150000x128, .f32⟩
  | 14 => ⟨S1x150000, .i32⟩
  | 15 => ⟨S150000, .i32⟩
  | 16 => ⟨S_, .i32⟩
  | 17 => ⟨S150000, .i32⟩
  | 18 => ⟨S150000, .i1⟩
  | 19 => ⟨S_, .i32⟩
  | 20 => ⟨S150000, .i32⟩
  | 21 => ⟨S150000, .i32⟩
  | 22 => ⟨S150000, .i32⟩
  | 23 => ⟨S150000x1, .i32⟩
  | 24 => ⟨S150000x128, .f32⟩
  | 25 => ⟨S1x128x128, .f32⟩
  | 26 => ⟨S128x128, .f32⟩
  | 27 => ⟨S150000x128, .f32⟩
  | 28 => ⟨S1x150000, .i32⟩
  | 29 => ⟨S150000, .i32⟩
  | 30 => ⟨S_, .i32⟩
  | 31 => ⟨S150000, .i32⟩
  | 32 => ⟨S150000, .i1⟩
  | 33 => ⟨S_, .i32⟩
  | 34 => ⟨S150000, .i32⟩
  | 35 => ⟨S150000, .i32⟩
  | 36 => ⟨S150000, .i32⟩
  | 37 => ⟨S150000x1, .i32⟩
  | 38 => ⟨S150000x128, .f32⟩
  | 39 => ⟨S1x150000, .i32⟩
  | 40 => ⟨S150000, .i32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S150000x128, .f32⟩
  | 50 => ⟨S1x128x128, .f32⟩
  | 51 => ⟨S128x128, .f32⟩
  | 52 => ⟨S150000x128, .f32⟩
  | 53 => ⟨S1x150000, .i32⟩
  | 54 => ⟨S150000, .i32⟩
  | 55 => ⟨S_, .i32⟩
  | 56 => ⟨S150000, .i32⟩
  | 57 => ⟨S150000, .i1⟩
  | 58 => ⟨S_, .i32⟩
  | 59 => ⟨S150000, .i32⟩
  | 60 => ⟨S150000, .i32⟩
  | 61 => ⟨S150000, .i32⟩
  | 62 => ⟨S150000x1, .i32⟩
  | 63 => ⟨S150000x128, .f32⟩
  | 64 => ⟨S1x150000, .i32⟩
  | 65 => ⟨S150000, .i32⟩
  | 66 => ⟨S_, .i32⟩
  | 67 => ⟨S150000, .i32⟩
  | 68 => ⟨S150000, .i1⟩
  | 69 => ⟨S_, .i32⟩
  | 70 => ⟨S150000, .i32⟩
  | 71 => ⟨S150000, .i32⟩
  | 72 => ⟨S150000, .i32⟩
  | 73 => ⟨S150000x1, .i32⟩
  | 74 => ⟨S150000x128, .f32⟩
  | 75 => ⟨S1x128x128, .f32⟩
  | 76 => ⟨S128x128, .f32⟩
  | 77 => ⟨S150000x128, .f32⟩
  | 78 => ⟨S1x150000, .i32⟩
  | 79 => ⟨S150000, .i32⟩
  | 80 => ⟨S_, .i32⟩
  | 81 => ⟨S150000, .i32⟩
  | 82 => ⟨S150000, .i1⟩
  | 83 => ⟨S_, .i32⟩
  | 84 => ⟨S150000, .i32⟩
  | 85 => ⟨S150000, .i32⟩
  | 86 => ⟨S150000, .i32⟩
  | 87 => ⟨S150000x1, .i32⟩
  | 88 => ⟨S150000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S150000x128, .f32⟩
  | 96 => ⟨S150000x128, .f32⟩
  | 97 => ⟨S150000x128, .f32⟩
  | 98 => ⟨S_, .f32⟩
  | 99 => ⟨S128, .f32⟩
  | 100 => ⟨S_, .f32⟩
  | 101 => ⟨S128, .f32⟩
  | 102 => ⟨S128, .f32⟩
  | 103 => ⟨S1x128, .f32⟩
  | 104 => ⟨S150000x128, .f32⟩
  | 105 => ⟨S150000x128, .f32⟩
  | 106 => ⟨S_, .f32⟩
  | 107 => ⟨S128, .f32⟩
  | 108 => ⟨S128, .f32⟩
  | 109 => ⟨S128, .f32⟩
  | 110 => ⟨S1x128, .f32⟩
  | 111 => ⟨S150000x128, .f32⟩
  | 112 => ⟨S150000x128, .f32⟩
  | 113 => ⟨S1x128, .f32⟩
  | 114 => ⟨S150000x128, .f32⟩
  | 115 => ⟨S150000x128, .f32⟩
  | 116 => ⟨S1x128, .f32⟩
  | 117 => ⟨S150000x128, .f32⟩
  | 118 => ⟨S150000x128, .f32⟩
  | 119 => ⟨S_, .f32⟩
  | 120 => ⟨S150000x128, .f32⟩
  | 121 => ⟨S150000x128, .f32⟩
  | 122 => ⟨S150000x256, .f32⟩
  | 123 => ⟨S150000x128, .f32⟩
  | 124 => ⟨S1x128, .f32⟩
  | 125 => ⟨S150000x128, .f32⟩
  | 126 => ⟨S150000x128, .f32⟩
  | 127 => ⟨S_, .f32⟩
  | _ => ⟨S40000x128, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S150000x128, .f32⟩
  | 6 => ⟨S150000x128, .f32⟩
  | 7 => ⟨S150000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S150000x128, .f32⟩
  | 15 => ⟨S150000x128, .f32⟩
  | 16 => ⟨S_, .f32⟩
  | 17 => ⟨S128, .f32⟩
  | 18 => ⟨S128, .f32⟩
  | 19 => ⟨S128, .f32⟩
  | 20 => ⟨S1x128, .f32⟩
  | 21 => ⟨S150000x128, .f32⟩
  | 22 => ⟨S150000x128, .f32⟩
  | 23 => ⟨S1x128, .f32⟩
  | 24 => ⟨S150000x128, .f32⟩
  | 25 => ⟨S150000x128, .f32⟩
  | 26 => ⟨S1x128, .f32⟩
  | 27 => ⟨S150000x128, .f32⟩
  | 28 => ⟨S150000x128, .f32⟩
  | 29 => ⟨S_, .f32⟩
  | 30 => ⟨S150000x128, .f32⟩
  | 31 => ⟨S150000x128, .f32⟩
  | 32 => ⟨S150000x128, .f32⟩
  | 33 => ⟨S1x128, .f32⟩
  | 34 => ⟨S150000x128, .f32⟩
  | 35 => ⟨S150000x128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S150000x128, .f32⟩
  | 43 => ⟨S150000x128, .f32⟩
  | 44 => ⟨S150000x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S150000x128, .f32⟩
  | 52 => ⟨S150000x128, .f32⟩
  | 53 => ⟨S_, .f32⟩
  | 54 => ⟨S128, .f32⟩
  | 55 => ⟨S128, .f32⟩
  | 56 => ⟨S128, .f32⟩
  | 57 => ⟨S1x128, .f32⟩
  | 58 => ⟨S150000x128, .f32⟩
  | 59 => ⟨S150000x128, .f32⟩
  | 60 => ⟨S1x128, .f32⟩
  | 61 => ⟨S150000x128, .f32⟩
  | 62 => ⟨S150000x128, .f32⟩
  | 63 => ⟨S1x128, .f32⟩
  | 64 => ⟨S150000x128, .f32⟩
  | 65 => ⟨S150000x128, .f32⟩
  | 66 => ⟨S_, .f32⟩
  | 67 => ⟨S150000x128, .f32⟩
  | 68 => ⟨S150000x128, .f32⟩
  | 69 => ⟨S150000x128, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_15 : Ref sig .tc := ⟨.hbm, 119, rfl⟩
abbrev main_v87 : Ref sig .tc := ⟨.hbm, 120, rfl⟩
abbrev main_v88 : Ref sig .tc := ⟨.hbm, 121, rfl⟩
abbrev main_c_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_17 : Ref sig .tc := ⟨.hbm, 133, rfl⟩
abbrev main_v99 : Ref sig .tc := ⟨.hbm, 134, rfl⟩
abbrev main_v100 : Ref sig .tc := ⟨.hbm, 135, rfl⟩
abbrev main_c_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_19 : Ref sig .tc := ⟨.hbm, 144, rfl⟩
abbrev main_v108 : Ref sig .tc := ⟨.hbm, 145, rfl⟩
abbrev main_v109 : Ref sig .tc := ⟨.hbm, 146, rfl⟩
abbrev main_c_20 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_21 : Ref sig .tc := ⟨.hbm, 158, rfl⟩
abbrev main_v120 : Ref sig .tc := ⟨.hbm, 159, rfl⟩
abbrev main_v121 : Ref sig .tc := ⟨.hbm, 160, rfl⟩
abbrev main_c_22 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_23 : Ref sig .tc := ⟨.hbm, 169, rfl⟩
abbrev main_v129 : Ref sig .tc := ⟨.hbm, 170, rfl⟩
abbrev main_v130 : Ref sig .tc := ⟨.hbm, 171, rfl⟩
abbrev main_c_24 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_c_25 : Ref sig .tc := ⟨.hbm, 183, rfl⟩
abbrev main_v141 : Ref sig .tc := ⟨.hbm, 184, rfl⟩
abbrev main_v142 : Ref sig .tc := ⟨.hbm, 185, rfl⟩
abbrev main_c_26 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_c_27 : Ref sig .tc := ⟨.hbm, 194, rfl⟩
abbrev main_v150 : Ref sig .tc := ⟨.hbm, 195, rfl⟩
abbrev main_v151 : Ref sig .tc := ⟨.hbm, 196, rfl⟩
abbrev main_c_28 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_c_29 : Ref sig .tc := ⟨.hbm, 208, rfl⟩
abbrev main_v162 : Ref sig .tc := ⟨.hbm, 209, rfl⟩
abbrev main_v163 : Ref sig .tc := ⟨.hbm, 210, rfl⟩
abbrev main_c_30 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_31 : Ref sig .tc := ⟨.hbm, 217, rfl⟩
abbrev main_v169 : Ref sig .tc := ⟨.hbm, 218, rfl⟩
abbrev main_cst_32 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_cst_33 : Ref sig .tc := ⟨.hbm, 226, rfl⟩
abbrev main_v176 : Ref sig .tc := ⟨.hbm, 227, rfl⟩
abbrev main_cst_34 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_35 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_call0_cst : Ref sig .tc := ⟨.hbm, 247, rfl⟩
abbrev main_call0_v0 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_36 : Ref sig .tc := ⟨.hbm, 255, rfl⟩
abbrev main_v200 : Ref sig .tc := ⟨.hbm, 256, rfl⟩
abbrev main_cst_37 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_38 : Ref sig .tc := ⟨.hbm, 264, rfl⟩
abbrev main_v207 : Ref sig .tc := ⟨.hbm, 265, rfl⟩
abbrev main_cst_39 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_cst_40 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_call1_cst : Ref sig .tc := ⟨.hbm, 285, rfl⟩
abbrev main_call1_v0 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_41 : Ref sig .tc := ⟨.hbm, 292, rfl⟩
abbrev main_v230 : Ref sig .tc := ⟨.hbm, 293, rfl⟩
abbrev main_cst_42 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_cst_43 : Ref sig .tc := ⟨.hbm, 301, rfl⟩
abbrev main_v237 : Ref sig .tc := ⟨.hbm, 302, rfl⟩
abbrev main_cst_44 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_45 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_call2_cst : Ref sig .tc := ⟨.hbm, 322, rfl⟩
abbrev main_call2_v0 : Ref sig .tc := ⟨.hbm, 323, rfl⟩
abbrev main_v255 : Ref sig .tc := ⟨.hbm, 324, rfl⟩
abbrev main_v256 : Ref sig .tc := ⟨.hbm, 325, rfl⟩

abbrev nD : Nat := 1
abbrev τ : Topo := Topo.v7x

variable {F : FTy → Type} [FloatOps F]

class Facts₀ : Prop where
  bcast_S_S150000x128 : S_.BroadcastsInDim S150000x128 (![] : Fin 0 → Fin S150000x128.rank)
  slices_S8x150000_S1x150000_0_0 : S8x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S8x128x128_S1x128x128_0_0_0 : S8x128x128.Slices ![0, 0, 0] S1x128x128
  shapeCasts_S1x128x128_S128x128 : S1x128x128.ShapeCasts S128x128
  slices_S8x150000_S1x150000_1_0 : S8x150000.Slices ![1, 0] S1x150000
  slices_S8x128x128_S1x128x128_1_0_0 : S8x128x128.Slices ![1, 0, 0] S1x128x128
  slices_S8x150000_S1x150000_2_0 : S8x150000.Slices ![2, 0] S1x150000
  slices_S8x128x128_S1x128x128_2_0_0 : S8x128x128.Slices ![2, 0, 0] S1x128x128
  slices_S8x150000_S1x150000_3_0 : S8x150000.Slices ![3, 0] S1x150000
  slices_S8x128x128_S1x128x128_3_0_0 : S8x128x128.Slices ![3, 0, 0] S1x128x128
  slices_S8x150000_S1x150000_4_0 : S8x150000.Slices ![4, 0] S1x150000
  slices_S8x128x128_S1x128x128_4_0_0 : S8x128x128.Slices ![4, 0, 0] S1x128x128
  slices_S8x150000_S1x150000_5_0 : S8x150000.Slices ![5, 0] S1x150000
  slices_S8x128x128_S1x128x128_5_0_0 : S8x128x128.Slices ![5, 0, 0] S1x128x128
  slices_S8x150000_S1x150000_6_0 : S8x150000.Slices ![6, 0] S1x150000
  slices_S8x128x128_S1x128x128_6_0_0 : S8x128x128.Slices ![6, 0, 0] S1x128x128
  slices_S8x150000_S1x150000_7_0 : S8x150000.Slices ![7, 0] S1x150000
  slices_S8x128x128_S1x128x128_7_0_0 : S8x128x128.Slices ![7, 0, 0] S1x128x128
  reducesTo_S150000x128_S128_d0 : S150000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  concatenates_S150000x128_S150000x128_S150000x256_d1 : Shape.Concatenates [S150000x128, S150000x128] S150000x256 1
  gather_S40000x128_S150000x1_S150000x128_1_0_n_n_0_1_1128_wf : GatherDims.WF S40000x128 S150000x1 S150000x128 [1] [0] [] [0] [] 1 ![1, 128]
  dot_S150000x128_S128x128_S150000x128_1_0_0_1_n_n_wf : DotDims.WF S150000x128 S128x128 S150000x128 [1] [0] [0] [1] [] []
  scatter_S150000x128_S150000x1_S150000x128_1_0_0_1_wf : ScatterDims.WF S150000x128 S150000x1 S150000x128 [1] [0] [0] 1
  dot_S150000x256_S256x128_S150000x128_1_0_0_1_n_n_wf : DotDims.WF S150000x256 S256x128 S150000x128 [1] [0] [0] [1] [] []

variable [Facts₀]

def gather_S40000x128_S150000x1_S150000x128_1_0_n_n_0_1_1128 : GatherDims S40000x128 S150000x1 S150000x128 where
  offsetDims := [1]
  collapsedSliceDims := [0]
  operandBatchingDims := []
  startIndicesBatchingDims := []
  startIndexMap := [0]
  indexVectorDim := 1
  sliceSizes := ![1, 128]
  wf := gather_S40000x128_S150000x1_S150000x128_1_0_n_n_0_1_1128_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def scatter_S150000x128_S150000x1_S150000x128_1_0_0_1 : ScatterDims S150000x128 S150000x1 S150000x128 where
  updateWindowDims := [1]
  insertedWindowDims := [0]
  scatterDimsToOperandDims := [0]
  indexVectorDim := 1
  wf := scatter_S150000x128_S150000x1_S150000x128_1_0_0_1_wf
def dot_S150000x256_S256x128_S150000x128_1_0_0_1_n_n : DotDims S150000x256 S256x128 S150000x128 where
  lhsContracting := [1]
  rhsContracting := [0]
  lhsNonContracting := [0]
  rhsNonContracting := [1]
  lhsBatch := []
  rhsBatch := []
  wf := dot_S150000x256_S256x128_S150000x128_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) := (⟨2, ![a, b]⟩ : Shape).Idx → EReal

abbrev Row (a : Nat) := (⟨1, ![a]⟩ : Shape).Idx → EReal

abbrev Ten (a b c : Nat) := (⟨3, ![a, b, c]⟩ : Shape).Idx → EReal

abbrev IMat (a b : Nat) := (⟨2, ![a, b]⟩ : Shape).Idx → BitVec 32

def mat {a b : Nat} (f : Fin a → Fin b → EReal) : Mat a b := fun i => f (i 0) (i 1)
@[simp] theorem mat_ix2 {a b : Nat} (f : Fin a → Fin b → EReal) (r : Fin a) (c : Fin b) : mat f (ix2 r c) = f r c := rfl

def cnt : EReal := Ideal.ofBits .f32 0x48127C00#32

def eps : EReal := Ideal.ofBits .f32 0x3727C5AC#32

def wrap (n w : BitVec 32) : BitVec 32 := if w.toInt < 0 then w + n else w

def srcRow (w : BitVec 32) : Fin 40000 := ⟨min (wrap 40000#32 w).toInt.toNat 39999, by omega⟩

section Chain

variable (var : Mat 150000 128 → Fin 128 → EReal)
variable (x : Mat 40000 128) (skip : Mat 150000 128) (pin pout : IMat 8 150000) (Wup : Ten 8 128 128)
  (g0 b0 : Row 128) (W1 : Mat 256 128) (b1 g1 be1 : Row 128) (W2 : Mat 128 128) (b2 g2 be2 : Row 128)

def contrib (k : Fin 8) (p : Fin 150000) (c : Fin 128) : EReal :=
  ∑ j : Fin 128, x (ix2 (srcRow (pin (ix2 k p))) j) * Wup (ix3 k j c)

def conv (r : Fin 150000) (c : Fin 128) : EReal :=
  ∑ k : Fin 8, ∑ p ∈ Finset.univ.filter (fun p : Fin 150000 => (wrap 150000#32 (pout (ix2 k p))).toInt = (r.val : ℤ)),
    contrib x pin Wup k p c

def mean (h : Mat 150000 128) (c : Fin 128) : EReal := Ideal.div (∑ r : Fin 150000, h (ix2 r c)) cnt

def varTwoPass (h : Mat 150000 128) (c : Fin 128) : EReal :=
  Ideal.div (∑ r : Fin 150000, (h (ix2 r c) - mean h c) * (h (ix2 r c) - mean h c)) cnt

def varOnePass (h : Mat 150000 128) (c : Fin 128) : EReal :=
  Ideal.div (∑ r : Fin 150000, h (ix2 r c) * h (ix2 r c)) cnt - mean h c * mean h c

def bnRelu (v : Fin 128 → EReal) (h : Mat 150000 128) (g b : Row 128) (r : Fin 150000) (c : Fin 128) : EReal :=
  max ((h (ix2 r c) - mean h c) * Ideal.rsqrt (v c + eps) * g (ix1 c) + b (ix1 c)) 0

def lin1 (u s : Mat 150000 128) (r : Fin 150000) (c : Fin 128) : EReal :=
  (∑ j : Fin 128, u (ix2 r j) * W1 (ix2 (⟨j.val, by have := j.isLt; omega⟩ : Fin 256) c)
    + ∑ j : Fin 128, s (ix2 r j) * W1 (ix2 (⟨128 + j.val, by have := j.isLt; omega⟩ : Fin 256) c)) + b1 (ix1 c)

def lin2 (h : Mat 150000 128) (r : Fin 150000) (c : Fin 128) : EReal :=
  ∑ j : Fin 128, h (ix2 r j) * W2 (ix2 j c) + b2 (ix1 c)

def convM : Mat 150000 128 := mat (conv x pin pout Wup)

def up : Mat 150000 128 := mat (bnRelu (var (convM x pin pout Wup)) (convM x pin pout Wup) g0 b0)

def h1 : Mat 150000 128 := mat (lin1 W1 b1 (up var x pin pout Wup g0 b0) skip)

def h1n : Mat 150000 128 :=
  mat (bnRelu (var (h1 var x skip pin pout Wup g0 b0 W1 b1)) (h1 var x skip pin pout Wup g0 b0 W1 b1) g1 be1)

def h2 : Mat 150000 128 := mat (lin2 W2 b2 (h1n var x skip pin pout Wup g0 b0 W1 b1 g1 be1))

def out : Mat 150000 128 := fun i =>
  bnRelu (var (h2 var x skip pin pout Wup g0 b0 W1 b1 g1 be1 W2 b2)) (h2 var x skip pin pout Wup g0 b0 W1 b1 g1 be1 W2 b2) g2 be2 (i 0) (i 1)
    + up var x pin pout Wup g0 b0 i

end Chain

def Finite (a : EReal) : Prop := a ≠ ⊥ ∧ a ≠ ⊤

end Cert.Spec

end
-- ==== Proof.KSpec.lean ====
import proofs.«425338_j83640193122774_2_alg».proof.Proof.Spec

noncomputable section

open scoped BigOperators

namespace Cert.KSpec

open Idealize.ShloMosaic Idealize.ShloMosaic.ValueIdx Cert.Spec

abbrev z1 : Fin 1 := ⟨0, Nat.one_pos⟩

def tfm (x : Mat 40000 128) (Wup : Ten 8 128 128) : Ten 8 40000 128 := fun i =>
  ∑ j : Fin 128, x (ix2 (i 1) j) * Wup (ix3 (i 0) j (i 2))

def convOf (y : Ten 8 40000 128) (pin pout : IMat 8 150000) (r : Fin 150000) (c : Fin 128) : EReal :=
  ∑ k : Fin 8, ∑ p ∈ Finset.univ.filter (fun p : Fin 150000 => (wrap 150000#32 (pout (ix2 k p))).toInt = (r.val : ℤ)),
    y (ix3 k (srcRow (pin (ix2 k p))) c)

def colSum (h : Mat 150000 128) : Mat 1 128 := fun i => ∑ r : Fin 150000, h (ix2 r (i 1))

def colSumSq (h : Mat 150000 128) : Mat 1 128 := fun i => ∑ r : Fin 150000, h (ix2 r (i 1)) * h (ix2 r (i 1))

def muRow (s : Mat 1 128) : Mat 1 128 := fun i => Ideal.div (s i) cnt

def vaRow (s q : Mat 1 128) : Mat 1 128 := fun i => Ideal.div (q i) cnt - muRow s i * muRow s i

def rowOf (g : Row 128) : Mat 1 128 := fun i => g (ix1 (i 1))

def topHalf (W : Mat 256 128) : Mat 128 128 := fun i =>
  W (ix2 (⟨(i 0).val, by have := (i 0).isLt; simp only [Matrix.cons_val_zero] at this; omega⟩ : Fin 256) (i 1))

def botHalf (W : Mat 256 128) : Mat 128 128 := fun i =>
  W (ix2 (⟨128 + (i 0).val, by have := (i 0).isLt; simp only [Matrix.cons_val_zero] at this; omega⟩ : Fin 256) (i 1))

def norm (h : Mat 150000 128) (mu va g b : Mat 1 128) (r : Fin 150000) (c : Fin 128) : EReal :=
  max ((h (ix2 r c) - mu (ix2 z1 c)) * Ideal.rsqrt (va (ix2 z1 c) + eps) * g (ix2 z1 c) + b (ix2 z1 c)) 0

def aff1 (u s : Mat 150000 128) (Wa Wb : Mat 128 128) (b1 : Mat 1 128) (r : Fin 150000) (c : Fin 128) : EReal :=
  (∑ j : Fin 128, u (ix2 r j) * Wa (ix2 j c) + ∑ j : Fin 128, s (ix2 r j) * Wb (ix2 j c)) + b1 (ix2 z1 c)

def aff2 (h : Mat 150000 128) (W2 : Mat 128 128) (b2 : Mat 1 128) (r : Fin 150000) (c : Fin 128) : EReal :=
  ∑ j : Fin 128, h (ix2 r j) * W2 (ix2 j c) + b2 (ix2 z1 c)

end Cert.KSpec

end
-- ==== Proof.KArgs.lean ====
import proofs.«425338_j83640193122774_2_alg».proof.Proof.Gen.KernelIdeal.Frame
import proofs.«425338_j83640193122774_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec
open Idealize.ShloMosaic.Pipeline (Dat Cfg Window)

variable (m : (ℓ : Loc nD τ sig) → Buf (Elt Ideal) ℓ) (ρ : Dev nD → PrngReg)

abbrev aX (c : Dev nD) : Mat 40000 128 := m ((c : Thread nD τ).loc main_arg0)
abbrev aSkip (c : Dev nD) : Mat 150000 128 := m ((c : Thread nD τ).loc main_arg1)
abbrev aPin (c : Dev nD) : IMat 8 150000 := m ((c : Thread nD τ).loc main_arg2)
abbrev aPout (c : Dev nD) : IMat 8 150000 := m ((c : Thread nD τ).loc main_arg3)
abbrev aWup (c : Dev nD) : Ten 8 128 128 := m ((c : Thread nD τ).loc main_arg4)
abbrev aG0 (c : Dev nD) : Row 128 := m ((c : Thread nD τ).loc main_arg5)
abbrev aB0 (c : Dev nD) : Row 128 := m ((c : Thread nD τ).loc main_arg6)
abbrev aW1 (c : Dev nD) : Mat 256 128 := m ((c : Thread nD τ).loc main_arg7)
abbrev aB1 (c : Dev nD) : Row 128 := m ((c : Thread nD τ).loc main_arg8)
abbrev aG1 (c : Dev nD) : Row 128 := m ((c : Thread nD τ).loc main_arg9)
abbrev aBe1 (c : Dev nD) : Row 128 := m ((c : Thread nD τ).loc main_arg10)
abbrev aW2 (c : Dev nD) : Mat 128 128 := m ((c : Thread nD τ).loc main_arg11)
abbrev aB2 (c : Dev nD) : Row 128 := m ((c : Thread nD τ).loc main_arg12)
abbrev aG2 (c : Dev nD) : Row 128 := m ((c : Thread nD τ).loc main_arg13)
abbrev aBe2 (c : Dev nD) : Row 128 := m ((c : Thread nD τ).loc main_arg14)

end Cert.KernelIdeal.Val

end
-- ==== Proof.LibBlockOps.lean ====
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

end BlockOps

end
-- ==== Proof.KR0.lean ====
import proofs.«425338_j83640193122774_2_alg».proof.Proof.Gen.KernelIdeal.Frame
import proofs.«425338_j83640193122774_2_alg».proof.Proof.KSpec
import proofs.«425338_j83640193122774_2_alg».proof.Proof.LibBlockOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec
open Idealize.ShloMosaic.Pipeline (Dat Cfg Window)

variable (V : (c : Dev nD) → (b : Ref sig .tc) → Buf (Elt Ideal) ((c : Thread nD τ).loc b))

namespace R0

-- The leading unit axis is dropped on both sides of the block product.
theorem pay0_apply (x0 : FVec Ideal S10000x128 .f32) (x1 : FVec Ideal S1x128x128 .f32) (u : Fin 1) (p : Fin 10000) (n : Fin 128) :
    (k0_pay1 (F := Ideal) x0 x1 : S1x10000x128.Idx → EReal) (ix3 u p n) = ∑ j : Fin 128, x0 (ix2 p j) * x1 (ix3 z1 j n) := by
  unfold k0_pay1
  refine (shapeCast_ab_1ab_apply _ shapeCasts_S10000x128_S1x10000x128 u p n).trans ?_
  refine (BlockOps.matmul_zero_apply dot_S10000x128_S128x128_S10000x128_1_0_0_1_n_n_wf none x0
    (shapeCast S128x128 x1 shapeCasts_S1x128x128_S128x128) p n).trans ?_
  exact Finset.sum_congr rfl fun j _ =>
    congrArg (x0 (ix2 p j) * ·) (shapeCast_1ab_ab_apply x1 shapeCasts_S1x128x128_S128x128 j n)

theorem hz0_2 : (![0, 0] : Fin 2 → Nat) = fun _ => 0 := funext fun a => by fin_cases a <;> rfl
theorem hz0_3 : (![0, 0, 0] : Fin 3 → Nat) = fun _ => 0 := funext fun a => by fin_cases a <;> rfl

abbrev xb (c : Dev nD) (t : Fin cfg0.N) : FVec Ideal S10000x128 .f32 := iblk0 V c 0 t

abbrev wb (c : Dev nD) (t : Fin cfg0.N) : FVec Ideal S1x128x128 .f32 := iblk0 V c 1 t

abbrev xa (c : Dev nD) : Mat 40000 128 := V c main_arg0

abbrev wa (c : Dev nD) : Ten 8 128 128 := V c main_arg4

theorem idx_facts0 : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = t.val / 8 ∧ win0_2.index t (2 : Fin 3) = 0 :=
  (by decide +kernel : ∀ t : Fin grid0.N, _)

theorem iblk0_0_apply (c : Dev nD) (t : Fin cfg0.N) (p : Fin 10000) (j : Fin 128) (r : Fin 40000)
    (hr : r.val = t.val / 8 * 10000 + p.val) :
    xb V c t (ix2 p j) = xa V c (ix2 r j) := by
  obtain ⟨e0, e1, -⟩ := idx_facts0 t
  show (V c main_arg0 : S40000x128.Idx → EReal) (((cfg0.win 0).blk t).view.emb (ix2 p j)) = _
  refine congrArg (V c main_arg0 : S40000x128.Idx → EReal) (funext fun a => Fin.ext ?_)
  match a with
  | ⟨0, _⟩ => show win0_0.index t (0 : Fin 2) * 10000 + 1 * p.val = r.val; omega
  | ⟨1, _⟩ => show win0_0.index t (1 : Fin 2) * 128 + 1 * j.val = j.val; omega

theorem iblk0_1_apply (c : Dev nD) (t : Fin cfg0.N) (j n : Fin 128) (k : Fin 8) (hk : k.val = t.val % 8) :
    wb V c t (ix3 z1 j n) = wa V c (ix3 k j n) := by
  obtain ⟨-, -, e0, e1, e2, -⟩ := idx_facts0 t
  show (V c main_arg4 : S8x128x128.Idx → EReal) (((cfg0.win 1).blk t).view.emb (ix3 z1 j n)) = _
  refine congrArg (V c main_arg4 : S8x128x128.Idx → EReal) (funext fun a => Fin.ext ?_)
  match a with
  | ⟨0, _⟩ => show win0_1.index t (0 : Fin 3) * 1 + 1 * 0 = k.val; omega
  | ⟨1, _⟩ => show win0_1.index t (1 : Fin 3) * 128 + 1 * j.val = j.val; omega
  | ⟨2, _⟩ => show win0_1.index t (2 : Fin 3) * 128 + 1 * n.val = n.val; omega

-- Each entry of the stored block reads its inputs' blocks at the place the output block gives the entry.
theorem flushed0_eq (c : Dev nD) (t : Fin cfg0.N) :
    (dat0 (F := Ideal) V c).flushed 2 t
      = ((cfg0.win 2).blk t).view.read (Elt Ideal) (tfm (V c main_arg0) (V c main_arg4)) := by
  show (cfg0.win 2).cut (grid0.coords t) ((dat0 V c).after 2 t) = _
  rw [after0_2]
  unfold out0_2
  rw [View.canon_unit_zero hz0_3]
  simp only [View.ld_unit_zero (S := S10000x128) hz0_2, View.ld_unit_zero (S := S1x128x128) hz0_3]
  funext y
  obtain ⟨u, p, n, rfl⟩ : ∃ (u : Fin 1) (p : Fin 10000) (n : Fin 128), y = (ix3 u p n : S1x10000x128.Idx) :=
    ⟨y 0, y 1, y 2, eq_ix3 y⟩
  have hN : cfg0.N = 32 := N_0
  have ht : t.val < 32 := hN ▸ t.isLt
  have hr : t.val / 8 * 10000 + p.val < 40000 := by have := p.isLt; omega
  have hk : t.val % 8 < 8 := by omega
  obtain ⟨-, -, -, -, -, e0, e1, e2⟩ := idx_facts0 t
  have he : ((cfg0.win 2).blk t).view.emb (ix3 u p n : S1x10000x128.Idx)
      = (ix3 (⟨t.val % 8, hk⟩ : Fin 8) (⟨t.val / 8 * 10000 + p.val, hr⟩ : Fin 40000) n : S8x40000x128.Idx) := by
    funext a; apply Fin.ext
    match a with
    | ⟨0, _⟩ => show win0_2.index t (0 : Fin 3) * 1 + 1 * u.val = t.val % 8; have := u.isLt; omega
    | ⟨1, _⟩ => show win0_2.index t (1 : Fin 3) * 10000 + 1 * p.val = t.val / 8 * 10000 + p.val; omega
    | ⟨2, _⟩ => show win0_2.index t (2 : Fin 3) * 128 + 1 * n.val = n.val; omega
  show (k0_pay1 (F := Ideal) (xb V c t) (wb V c t) : S1x10000x128.Idx → EReal) (ix3 u p n)
    = tfm (xa V c) (wa V c) (((cfg0.win 2).blk t).view.emb (ix3 u p n : S1x10000x128.Idx))
  refine (pay0_apply (xb V c t) (wb V c t) u p n).trans (Eq.trans ?_ (congrArg (tfm (xa V c) (wa V c)) he.symm))
  exact Finset.sum_congr rfl fun j _ =>
    congrArg₂ (· * ·) (iblk0_0_apply V c t p j ⟨_, hr⟩ rfl) (iblk0_1_apply V c t j n ⟨_, hk⟩ rfl)

-- The point 8 (r / 10000) + k holds entry (k, r, n).
theorem cover0 (i : S8x40000x128.Idx) :
    ∃ t : Fin cfg0.N, (cfg0.win 2).flush t = true ∧ i ∈ ((cfg0.win 2).blk t).view.set := by
  have hN : cfg0.N = 32 := N_0
  have hi0 : (i 0).val < 8 := (i 0).isLt
  have hi1 : (i 1).val < 40000 := (i 1).isLt
  have hi2 : (i 2).val < 128 := (i 2).isLt
  obtain ⟨T, hT⟩ : ∃ T : Fin cfg0.N, T.val = (i 1).val / 10000 * 8 + (i 0).val := ⟨⟨(i 1).val / 10000 * 8 + (i 0).val, by omega⟩, rfl⟩
  refine ⟨T, flush0_2 T, ?_⟩
  show i ∈ ((View.whole main_v0).slice (win0_2.rect T)).set
  rw [View.set_slice_whole, Rect.mem_set_unit]
  obtain ⟨-, -, -, -, -, e0, e1, e2⟩ := idx_facts0 T
  intro a
  match a with
  | ⟨0, _⟩ =>
    show win0_2.index T (0 : Fin 3) * 1 ≤ (i 0).val ∧ (i 0).val < win0_2.index T (0 : Fin 3) * 1 + 1
    omega
  | ⟨1, _⟩ =>
    show win0_2.index T (1 : Fin 3) * 10000 ≤ (i 1).val ∧ (i 1).val < win0_2.index T (1 : Fin 3) * 10000 + 10000
    omega
  | ⟨2, _⟩ =>
    show win0_2.index T (2 : Fin 3) * 128 ≤ (i 2).val ∧ (i 2).val < win0_2.index T (2 : Fin 3) * 128 + 128
    omega

end R0

open R0

theorem region0_y (c : Dev nD) :
    ((dat0 (F := Ideal) V c).arrAt 2 cfg0.N : S8x40000x128.Idx → EReal) = tfm (V c main_arg0) (V c main_arg4) :=
  (dat0 (F := Ideal) V c).arrAt_eq_of_cover 2 (tfm (V c main_arg0) (V c main_arg4))
    (fun t _ => flushed0_eq V c t) cover0

end Cert.KernelIdeal.Val

end
-- ==== Proof.LibSums.lean ====
import Idealize.ShloMosaic.Lib.ValueIdx

noncomputable section

open scoped BigOperators

namespace Cert.LibSums

def hi {N a b : Nat} (hN : N = a * b) (q : Fin N) : Fin a :=
  ⟨q.val / b, by have := q.isLt; subst hN; exact Nat.div_lt_of_lt_mul (by have h := Nat.mul_comm a b; omega)⟩

def lo {N : Nat} (b : Nat) (hb : 0 < b) (q : Fin N) : Fin b := ⟨q.val % b, Nat.mod_lt _ hb⟩

def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.LibAcc.lean ====
import proofs.«425338_j83640193122774_2_alg».proof.Proof.LibSums
import Idealize.ShloMosaic.Lib.Pipeline.Value

open scoped BigOperators

namespace Cert.LibAcc

open Idealize.ShloMosaic Idealize.ShloMosaic.ValueIdx Cert.LibSums

variable {M : Type} [AddCommMonoid M] {N a b : ℕ} (hN : N = a * b)

/-- Reset at the first point, then one tile's sum gained per point: after point `k` the partial sum over tiles `0 … k`. -/
theorem acc_partial (f : Fin N → M) (F : (k : ℕ) → k < a → M)
    (h0 : ∀ h, F 0 h = 0 + ∑ i : Fin b, f (flat hN ⟨0, h⟩ i))
    (hs : ∀ k h, F (k + 1) h = F k (Nat.lt_of_succ_lt h) + ∑ i : Fin b, f (flat hN ⟨k + 1, h⟩ i)) :
    ∀ k h, F k h = ∑ s ∈ Finset.range (k + 1), if hs : s < a then ∑ i : Fin b, f (flat hN ⟨s, hs⟩ i) else 0
  | 0, h => by rw [h0, zero_add, Finset.sum_range_one, dif_pos h]
  | k + 1, h => by rw [hs, acc_partial f F h0 hs k, Finset.sum_range_succ _ (k + 1), dif_pos h]

/-- After the last of the `a` points the accumulator is the sum over all `a·b` positions: the tiles partition them. -/
theorem acc_tiles (f : Fin N → M) (F : (k : ℕ) → k < a → M)
    (h0 : ∀ h, F 0 h = 0 + ∑ i : Fin b, f (flat hN ⟨0, h⟩ i))
    (hs : ∀ k h, F (k + 1) h = F k (Nat.lt_of_succ_lt h) + ∑ i : Fin b, f (flat hN ⟨k + 1, h⟩ i))
    (k : ℕ) (h : k < a) (hk : k + 1 = a) : F k h = ∑ r : Fin N, f r := by
  rw [acc_partial hN f F h0 hs k h, hk, sum_tiles hN f, Finset.sum_range]
  exact Finset.sum_congr rfl fun t _ => dif_pos t.isLt

/-- A 1×n row accumulated over the row tiles of an N×n matrix ends at the matrix's column sums. -/
theorem colsum_of_acc {n : ℕ} (H : (⟨2, ![N, n]⟩ : Shape).Idx → M) (A : (k : ℕ) → k < a → (⟨2, ![1, n]⟩ : Shape).Idx → M)
    (h0 : ∀ h (u : Fin 1) (q : Fin n), A 0 h (ix2 u q) = 0 + ∑ i : Fin b, H (ix2 (flat hN ⟨0, h⟩ i) q))
    (hs : ∀ k h (u : Fin 1) (q : Fin n),
      A (k + 1) h (ix2 u q) = A k (Nat.lt_of_succ_lt h) (ix2 u q) + ∑ i : Fin b, H (ix2 (flat hN ⟨k + 1, h⟩ i) q))
    (k : ℕ) (h : k < a) (hk : k + 1 = a) : A k h = fun i => ∑ r : Fin N, H (ix2 r (i 1)) := by
  funext i
  obtain ⟨u, q, rfl⟩ : ∃ (u : Fin 1) (q : Fin n), i = ix2 u q := ⟨i 0, i 1, eq_ix2 i⟩
  exact acc_tiles hN (fun r => H (ix2 r q)) (fun k h => A k h (ix2 u q)) (fun h => h0 h u q) (fun k h => hs k h u q) k h hk

/-- A block whose index is zero on every axis and whose sizes are the array's reads the whole array. -/
theorem read_blk0 {sig : RefSig} {κ : Kind} (Val : EltTy → Type) (b : Ref sig κ) {ix : Fin b.ty.shape.rank → ℕ}
    (h : ∀ a, ix a = 0) (inb : ∀ a, ix a * b.ty.shape.size a + b.ty.shape.size a ≤ b.ty.shape.size a)
    (f : b.ty.Contents Val) :
    ((Memref.whole b).access (Rect.unit (fun a => ix a * b.ty.shape.size a) b.ty.shape.size inb) : View sig κ _ _ _).read Val f = f :=
  Memref.read_access_unit_zero Val b (funext fun a => by rw [h a, Nat.zero_mul]) inb f

/-- Every index lies in the unit-stride rectangle at zero offsets whose sizes are the shape's. -/
theorem mem_unit_of_zero {S : Shape} {off size : Fin S.rank → ℕ} {inb : ∀ a, off a + size a ≤ S.size a}
    (ho : ∀ a, off a = 0) (hs : ∀ a, size a = S.size a) (y : S.Idx) : y ∈ (Rect.unit off size inb).set :=
  Rect.mem_set_unit.mpr fun a => ⟨by rw [ho a]; exact Nat.zero_le _, by rw [ho a, hs a, Nat.zero_add]; exact (y a).isLt⟩

end Cert.LibAcc
-- ==== Proof.KR1.lean ====
import proofs.«425338_j83640193122774_2_alg».proof.Proof.Gen.KernelIdeal.Frame
import proofs.«425338_j83640193122774_2_alg».proof.Proof.KSpec
import proofs.«425338_j83640193122774_2_alg».proof.Proof.LibAcc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec Cert.LibAcc
open Cert.LibSums (flat)
open Idealize.ShloMosaic.Pipeline (Dat Cfg Window)

variable (V : (c : Dev nD) → (b : Ref sig .tc) → Buf (Elt Ideal) ((c : Thread nD τ).loc b))

namespace R1

section Pieces
variable {c : Dev nD} {i : grid1.Coords} {a1 : Memref sig .tc .vmem S10000x128 .f32} {a2 a3 : Memref sig .tc .vmem S1x128 .f32}
  {h1 : a1.IsWhole} {h2 : a2.IsWhole} {h3 : a3.IsWhole} {x : Vec Ideal S10000x128 .f32} {xo1 xo2 : Vec Ideal S1x128 .f32}

theorem hz2 : (![0, 0] : Fin 2 → Nat) = fun _ => 0 := funext fun a => by fin_cases a <;> rfl

/-- At the first point the body leaves in each row zero plus the block's column sums (of the squares). -/
theorem piece_A {hc : cond1_0 i} :
    (out1_A_1 (F := Ideal) c i a1 h1 a2 h2 a3 h3 hc x, out1_A_2 (F := Ideal) c i a1 h1 a2 h2 a3 h3 hc x) = (k1_pay4 x (k1_pay1 (F := Ideal)), k1_pay5 x (k1_pay2 (F := Ideal))) := by
  unfold out1_A_1 out1_A_2
  rw [View.read_writes_eq_canon _ _ _ (cover1_A_1 c i a1 h1 a2 h2 a3 h3 hc x), View.read_writes_eq_canon _ _ _ (cover1_A_2 c i a1 h1 a2 h2 a3 h3 hc x)]
  unfold kernelRun1_A
  dsimp only
  sl_unfold_words
  rw [View.canon_cons_unit_zero (S := S1x128) hz2, View.readCov_unit_zero (S := S1x128) _ hz2,
    View.canon_cons_unit_zero (S := S1x128) hz2, View.readCov_unit_zero (S := S1x128) _ hz2]
  simp only [View.readAt_eq_ld, h1.read_unread, View.ld_unit_zero (S := S10000x128) hz2]

/-- At a later point it leaves in each row what the row held plus the block's column sums (of the squares). -/
theorem piece_B {hc : ¬cond1_0 i} :
    (out1_B_1 (F := Ideal) c i a1 h1 a2 h2 a3 h3 hc x xo1 xo2, out1_B_2 (F := Ideal) c i a1 h1 a2 h2 a3 h3 hc x xo1 xo2) = (k1_pay4 x xo1, k1_pay5 x xo2) := by
  unfold out1_B_1 out1_B_2
  rw [View.read_writes_eq_canon _ _ _ (cover1_B_1 c i a1 h1 a2 h2 a3 h3 hc x xo1 xo2), View.read_writes_eq_canon _ _ _ (cover1_B_2 c i a1 h1 a2 h2 a3 h3 hc x xo1 xo2)]
  unfold kernelRun1_B
  dsimp only
  sl_unfold_words
  rw [View.canon_unit_zero hz2, View.canon_unit_zero hz2]
  simp only [View.readAt_eq_ld, h1.read_unread, h2.read_unread, h3.read_unread, View.ld_unit_zero (S := S10000x128) hz2,
    View.ld_unit_zero (S := S1x128) hz2]

end Pieces

theorem pay1_apply (y : S1x128.Idx) : k1_pay1 (F := Ideal) y = 0 := Ideal.ofBits_zero_f32
theorem pay2_apply (y : S1x128.Idx) : k1_pay2 (F := Ideal) y = 0 := Ideal.ofBits_zero_f32

/-- The cast block at the reduction's source index for column n and row i is the block's entry (i, n). -/
theorem pay3_lift (x : Vec Ideal S10000x128 .f32) (n : Fin 128) (i : Fin 10000) :
    k1_pay3 (F := Ideal) x (reduces_S10000x128_S128.lift (ix1 n) i) = x (ix2 i n) := by
  refine (congrFun (shapeCast_self x _) _).trans (congrArg x ?_)
  funext a
  apply Fin.ext
  match a with
  | ⟨0, _⟩ => rfl
  | ⟨1, _⟩ => rfl

/-- A row plus the column sums of a block, at an entry. -/
theorem pay4_apply (x : Vec Ideal S10000x128 .f32) (acc : Vec Ideal S1x128 .f32) (u : Fin 1) (n : Fin 128) :
    k1_pay4 (F := Ideal) x acc (ix2 u n) = acc (ix2 u n) + ∑ i : Fin 10000, x (ix2 i n) := by
  unfold k1_pay4
  refine (addf_apply _ _ _).trans (congrArg₂ (· + ·) (congrFun (shapeCast_self acc _) _) ?_)
  refine (shapeCast_a_1a_apply _ _ u n).trans ?_
  refine (Ideal.multiReduction_add_single _ _ reduces_S10000x128_S128 _ _ (ix1 n)).trans ?_
  exact Finset.sum_congr rfl fun i _ => pay3_lift x n i

/-- A row plus the column sums of the squares of a block, at an entry. -/
theorem pay5_apply (x : Vec Ideal S10000x128 .f32) (acc : Vec Ideal S1x128 .f32) (u : Fin 1) (n : Fin 128) :
    k1_pay5 (F := Ideal) x acc (ix2 u n) = acc (ix2 u n) + ∑ i : Fin 10000, x (ix2 i n) * x (ix2 i n) := by
  unfold k1_pay5
  refine (addf_apply _ _ _).trans (congrArg₂ (· + ·) (congrFun (shapeCast_self acc _) _) ?_)
  refine (shapeCast_a_1a_apply _ _ u n).trans ?_
  refine (Ideal.multiReduction_add_single _ _ reduces_S10000x128_S128 _ _ (ix1 n)).trans ?_
  exact Finset.sum_congr rfl fun i _ => (mulf_apply _ _ _).trans (congrArg₂ (· * ·) (pay3_lift x n i) (pay3_lift x n i))

abbrev xarr (c : Dev nD) : Mat 150000 128 := V c main_v11
abbrev xblk (c : Dev nD) (t : Fin cfg1.N) : Vec Ideal S10000x128 .f32 := iblk1 V c 0 t

theorem N1 : cfg1.N = 15 := N_1
theorem pred_lt (t : Fin cfg1.N) : t.val - 1 < cfg1.N := Nat.lt_of_le_of_lt (Nat.sub_le _ _) t.isLt
theorem ne0 (n : ℕ) (h : n + 1 < cfg1.N) : ¬(n + 1) % 15 = 0 := by have := lt_of_lt_of_eq h N1; omega
theorem last_pt (t : Fin cfg1.N) (h : t.val % 15 = 14) : t.val + 1 = cfg1.N := by
  have := lt_of_lt_of_eq t.isLt N1; have := N1; omega
theorem hN1 : 150000 = cfg1.N * 10000 := by rw [N1]

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem idx0 : ∀ (t : Fin cfg1.N) (a : Fin 2), win1_1.index t a = 0 ∧ win1_2.index t a = 0 :=
  (by decide +kernel : ∀ (t : Fin grid1.N) (a : Fin 2), _)

/-- Entry (i, n) of block t is entry (10000 t + i, n) of the array. -/
theorem xblk_apply (c : Dev nD) (t : Fin cfg1.N) (i : Fin 10000) (n : Fin 128) :
    xblk V c t (ix2 i n) = xarr V c (ix2 (flat hN1 t i) n) := by
  unfold xblk iblk1
  rw [View.read_apply]
  show V c main_v11 _ = V c main_v11 (ix2 (flat hN1 t i) n)
  refine congrArg (V c main_v11) ?_
  funext a
  apply Fin.ext
  match a with
  | ⟨0, _⟩ => show win1_0.index t 0 * 10000 + 1 * i.val = t.val * 10000 + i.val; rw [(idx1_0 t).1]; omega
  | ⟨1, _⟩ => show win1_0.index t 1 * 128 + 1 * n.val = n.val; rw [(idx1_0 t).2]; omega

theorem outs_A (c : Dev nD) (t : Fin cfg1.N) (h0 : t.val % 15 = 0) : outsAt1 (F := Ideal) V c t.val t.isLt
    = (k1_pay4 (xblk V c t) (k1_pay1 (F := Ideal)), k1_pay5 (xblk V c t) (k1_pay2 (F := Ideal))) :=
  (outsAt1_A V c t h0).trans piece_A
theorem outs_B (c : Dev nD) (t : Fin cfg1.N) (h0 : ¬t.val % 15 = 0) : outsAt1 (F := Ideal) V c t.val t.isLt
    = (k1_pay4 (xblk V c t) (outsAt1 (F := Ideal) V c (t.val - 1) (pred_lt t)).1,
      k1_pay5 (xblk V c t) (outsAt1 (F := Ideal) V c (t.val - 1) (pred_lt t)).2) := (outsAt1_B V c t h0).trans piece_B

/-- After the last point the first row holds the column sums over all 150000 rows. -/
theorem stat1 (c : Dev nD) (t : Fin cfg1.N) (ht : t.val + 1 = cfg1.N) :
    (outsAt1 (F := Ideal) V c t.val t.isLt).1 = colSum (V c main_v11) :=
  colsum_of_acc hN1 (xarr V c) (fun n h => (outsAt1 (F := Ideal) V c n h).1)
    (fun h u q => (congrFun (congrArg (·.1) (outs_A V c ⟨0, h⟩ rfl)) _).trans ((pay4_apply _ _ u q).trans
      (congrArg₂ (· + ·) (pay1_apply _) (Finset.sum_congr rfl fun i _ => xblk_apply V c ⟨0, h⟩ i q))))
    (fun n h u q => (congrFun (congrArg (·.1) (outs_B V c ⟨n + 1, h⟩ (ne0 n h))) _).trans ((pay4_apply _ _ u q).trans
      (congrArg₂ (· + ·) rfl (Finset.sum_congr rfl fun i _ => xblk_apply V c ⟨n + 1, h⟩ i q))))
    t.val t.isLt ht

/-- And the second the column sums of squares: the same accumulation over the squared array. -/
theorem stat2 (c : Dev nD) (t : Fin cfg1.N) (ht : t.val + 1 = cfg1.N) :
    (outsAt1 (F := Ideal) V c t.val t.isLt).2 = colSumSq (V c main_v11) :=
  colsum_of_acc hN1 (fun j => xarr V c j * xarr V c j) (fun n h => (outsAt1 (F := Ideal) V c n h).2)
    (fun h u q => (congrFun (congrArg (·.2) (outs_A V c ⟨0, h⟩ rfl)) _).trans ((pay5_apply _ _ u q).trans
      (congrArg₂ (· + ·) (pay2_apply _) (Finset.sum_congr rfl fun i _ => congrArg (fun y => y * y) (xblk_apply V c ⟨0, h⟩ i q)))))
    (fun n h u q => (congrFun (congrArg (·.2) (outs_B V c ⟨n + 1, h⟩ (ne0 n h))) _).trans ((pay5_apply _ _ u q).trans
      (congrArg₂ (· + ·) rfl (Finset.sum_congr rfl fun i _ => congrArg (fun y => y * y) (xblk_apply V c ⟨n + 1, h⟩ i q)))))
    t.val t.isLt ht

/-- At the last point each row is the whole array's column sums (of squares). -/
theorem flushed1 (c : Dev nD) (t : Fin cfg1.N) (hf : (cfg1.win 1).flush t = true) :
    (dat1 (F := Ideal) V c).flushed 1 t = ((cfg1.win 1).blk t).view.read (Elt Ideal) (colSum (V c main_v11)) := by
  show (cfg1.win 1).cut (grid1.coords t) ((dat1 (F := Ideal) V c).after 1 t) = _
  rw [after1_1, stat1 V c t (last_pt t ((flush1_1 t).mp hf))]
  exact (read_blk0 _ main_v12_0 (fun a => (idx0 t a).1) _ _).symm
theorem flushed2 (c : Dev nD) (t : Fin cfg1.N) (hf : (cfg1.win 2).flush t = true) :
    (dat1 (F := Ideal) V c).flushed 2 t = ((cfg1.win 2).blk t).view.read (Elt Ideal) (colSumSq (V c main_v11)) := by
  show (cfg1.win 2).cut (grid1.coords t) ((dat1 (F := Ideal) V c).after 2 t) = _
  rw [after1_2, stat2 V c t (last_pt t ((flush1_2 t).mp hf))]
  exact (read_blk0 _ main_v12_1 (fun a => (idx0 t a).2) _ _).symm

/-- The last point's block is each whole 1×128 array. -/
theorem cover1 (i : S1x128.Idx) : ∃ t : Fin cfg1.N, (cfg1.win 1).flush t = true ∧ i ∈ ((cfg1.win 1).blk t).view.set :=
  ⟨t1_14, (flush1_1 t1_14).mpr rfl, by
    show i ∈ ((View.whole main_v12_0).slice (win1_1.rect t1_14)).set
    rw [View.set_slice_whole]
    exact mem_unit_of_zero (by decide +kernel) (by decide +kernel) i⟩
theorem cover2 (i : S1x128.Idx) : ∃ t : Fin cfg1.N, (cfg1.win 2).flush t = true ∧ i ∈ ((cfg1.win 2).blk t).view.set :=
  ⟨t1_14, (flush1_2 t1_14).mpr rfl, by
    show i ∈ ((View.whole main_v12_1).slice (win1_2.rect t1_14)).set
    rw [View.set_slice_whole]
    exact mem_unit_of_zero (by decide +kernel) (by decide +kernel) i⟩

end R1

open R1

theorem region1_sum (c : Dev nD) :
    ((dat1 (F := Ideal) V c).arrAt 1 cfg1.N : S1x128.Idx → EReal) = colSum (V c main_v11) :=
  (dat1 (F := Ideal) V c).arrAt_eq_of_cover 1 (colSum (V c main_v11)) (flushed1 V c) cover1
theorem region1_sumsq (c : Dev nD) :
    ((dat1 (F := Ideal) V c).arrAt 2 cfg1.N : S1x128.Idx → EReal) = colSumSq (V c main_v11) :=
  (dat1 (F := Ideal) V c).arrAt_eq_of_cover 2 (colSumSq (V c main_v11)) (flushed2 V c) cover2

end Cert.KernelIdeal.Val

end
-- ==== Proof.LibScatter.lean ====
import Idealize.ShloMosaic.PureOps.Ideal
import Idealize.ShloMosaic.Lib.ValueIdx

noncomputable section

open scoped BigOperators

namespace Cert.LibScatter

open Idealize.ShloMosaic Idealize.ShloMosaic.ValueIdx

abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

private theorem window0 : (rowScatter N R C wf).window (ix2 r k) 0 = 0 := rfl

private theorem window1 : (rowScatter N R C wf).window (ix2 r k) 1 = k.val := rfl

private theorem start1 : (rowScatter N R C wf).start (ix2 r k) idx 1 = 0 := rfl

private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  ·
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  ·
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm

  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.KHost1.lean ====
import proofs.«425338_j83640193122774_2_alg».proof.Proof.Gen.KernelIdeal.Launch
import proofs.«425338_j83640193122774_2_alg».proof.Proof.KSpec
import proofs.«425338_j83640193122774_2_alg».proof.Proof.LibSums
import proofs.«425338_j83640193122774_2_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384
set_option Elab.async false

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec

variable (W : Valuation τ sig (Elt Ideal))

namespace H1

theorem ofBuf_toBuf {sg : RefSig} {Val : EltTy → Type} {T : BufTy} (x : StableHlo.TRef sg T) (v : T.Contents Val) :
    x.ofBuf (x.toBuf v) = v := by
  obtain ⟨r, h, _, _⟩ := x
  subst h
  rfl

-- Each operand coordinate is start + batch + offset; on every axis of a batched row gather two of the three vanish.
abbrev batchRowGather (B N R C : Nat)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

theorem gather_batchRow_apply {α : Type} {B N R C w : Nat} (hN : 0 < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (k : Fin C) :
    Host.gather (batchRowGather B N R C wf) x idx (ix3 b r k)
      = x (ix3 b ⟨min (idx (ix3 b r (⟨0, Nat.one_pos⟩ : Fin 1))).toInt.toNat (N - 1), by omega⟩ k) := by
  have hb : (0 : Fin 3) ∈ (batchRowGather B N R C wf).operandBatchingDims := List.mem_singleton.mpr rfl
  have hm : (1 : Fin 3) ∈ (batchRowGather B N R C wf).startIndexMap := List.mem_singleton.mpr rfl
  have hk : (2 : Fin 3) ∈ (batchRowGather B N R C wf).sKept := (GatherDims.mem_sKept _ _).mpr ⟨show (2 : Fin 3) ∉ ([1] : List (Fin 3)) by decide, show (2 : Fin 3) ∉ ([0] : List (Fin 3)) by decide⟩
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.start_batching _ _ _ _ hb, GatherDims.offCoord_eq_zero _ _ _ fun h => ((GatherDims.mem_sKept _ _).mp h).2 hb,
      Nat.add_zero, Nat.zero_add, GatherDims.batchCoord, dif_pos hb]
    rfl
  | ⟨1, _⟩ =>
    show GatherDims.start _ _ idx 1 + GatherDims.batchCoord _ _ 1 + GatherDims.offCoord _ _ 1 = min _ (N - 1)
    rw [GatherDims.batchCoord_eq_zero _ _ _ (show (1 : Fin 3) ∉ ([0] : List (Fin 3)) by decide), GatherDims.offCoord_eq_zero _ _ _ fun h => ((GatherDims.mem_sKept _ _).mp h).1 hm,
      Nat.add_zero, GatherDims.start, dif_pos hm]
    exact congrArg (fun i => min (idx i).toInt.toNat (N - 1))
      (funext fun a => Fin.ext (match a with | ⟨0, _⟩ => rfl | ⟨1, _⟩ => rfl | ⟨2, _⟩ => rfl))
  | ⟨2, _⟩ =>
    show GatherDims.start _ _ idx 2 + GatherDims.batchCoord _ _ 2 + GatherDims.offCoord _ _ 2 = k.val
    rw [GatherDims.batchCoord_eq_zero _ _ _ (show (2 : Fin 3) ∉ ([0] : List (Fin 3)) by decide), GatherDims.start, dif_neg (show (2 : Fin 3) ∉ ([1] : List (Fin 3)) by decide),
      Nat.add_zero, Nat.zero_add, GatherDims.offCoord, dif_pos hk]
    rfl

-- What the program's compare-add-select computes, so that the later lemmas speak of `wrap` only.
theorem select_slt_zero (n w : BitVec 32) :
    Scalar.select (IntOp.cmpi .slt w 0#32) (IntOp.addi w n) w = wrap n w := by
  unfold Scalar.select IntOp.cmpi IntOp.addi wrap
  show (if BitVec.ofBool (w.slt 0#32) = 1 then w + n else w) = _
  unfold BitVec.slt
  rw [BitVec.toInt_zero]
  by_cases h : w.toInt < 0
  · rw [decide_eq_true h, if_pos h]; rfl
  · rw [decide_eq_false h, if_neg h]; rfl

theorem range_bit (w : BitVec 32) (h0 : 0 ≤ w.toInt) (h1 : w.toInt < 40000) :
    IntOp.andi (IntOp.cmpi .sge w 0#32) (IntOp.cmpi .sle w 39999#32) = 1#1 := by
  unfold IntOp.cmpi
  show IntOp.andi (BitVec.ofBool ((0#32 : BitVec 32).sle w)) (BitVec.ofBool (w.sle 39999#32)) = 1#1
  unfold BitVec.sle
  rw [BitVec.toInt_zero, show (39999#32 : BitVec 32).toInt = 39999 by decide, decide_eq_true h0,
    decide_eq_true (show w.toInt ≤ 39999 by omega)]
  decide

theorem foldl_andi_ones {ι : Type} (x : ι → BitVec 1) (hx : ∀ i, x i = 1#1) :
    ∀ L : List ι, L.foldl (fun r i => IntOp.andi r (x i)) 1#1 = 1#1
  | [] => rfl
  | a :: L => by
    rw [List.foldl_cons, hx a, show IntOp.andi (1#1 : BitVec 1) 1#1 = 1#1 by decide]
    exact foldl_andi_ones x hx L

theorem reduce_andi_ones {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

attribute [local irreducible] Host.reduce Ideal.ofBits

theorem flatN : 1200000 = 8 * 150000 := by norm_num

-- Row-major order: q = (q / 150000) · 150000 + q % 150000.
theorem flat_words {α : Type} (x : (⟨2, ![8, 150000]⟩ : Shape).Idx → α)
    (h : (⟨2, ![8, 150000]⟩ : Shape).ShapeCasts ⟨1, ![1200000]⟩) (q : Fin 1200000) :
    shapeCast (⟨1, ![1200000]⟩ : Shape) x h (ix1 q)
      = x (ix2 (Cert.LibSums.hi flatN q) (Cert.LibSums.lo 150000 (by norm_num) q)) := by
  refine shapeCast_apply x h (ix1 q) _ ?_
  rw [Shape.rowMajor_val_two, Shape.rowMajor_val_one]
  show q.val / 150000 * 150000 + q.val % 150000 = q.val
  omega

theorem flat_rows {α : Type} (x : (⟨3, ![8, 150000, 128]⟩ : Shape).Idx → α)
    (h : (⟨3, ![8, 150000, 128]⟩ : Shape).ShapeCasts ⟨2, ![1200000, 128]⟩) (q : Fin 1200000) (c : Fin 128) :
    shapeCast (⟨2, ![1200000, 128]⟩ : Shape) x h (ix2 q c)
      = x (ix3 (Cert.LibSums.hi flatN q) (Cert.LibSums.lo 150000 (by norm_num) q) c) := by
  refine shapeCast_apply x h (ix2 q c) _ ?_
  rw [Shape.rowMajor_val_three, Shape.rowMajor_val_two]
  show (q.val / 150000 * 150000 + q.val % 150000) * 128 + c.val = q.val * 128 + c.val
  omega

theorem wrap_of_nonneg (n w : BitVec 32) (h : 0 ≤ w.toInt) : wrap n w = w := by
  unfold wrap; rw [if_neg (by omega)]

-- The first stretch's intermediate arrays are named, so that the stretch's value is one application of them.
def takeIdx (pin : S8x150000.Idx → BitVec 32) : S8x150000x1.Idx → BitVec 32 :=
  broadcastInDim S8x150000x1 ![0, 1] Facts₀.bcast_S8x150000_S8x150000x1_0_1
    (select (cmpi .slt pin (broadcastInDim S8x150000 ![] Facts₀.bcast_S_S8x150000 (constantI S_ 32 0#32)))
      (addi pin (broadcastInDim S8x150000 ![] Facts₀.bcast_S_S8x150000 (constantI S_ 32 40000#32))) pin)

theorem takeIdx_eq (pin : S8x150000.Idx → BitVec 32) (i : S8x150000x1.Idx) :
    takeIdx pin i = wrap 40000#32 (pin (ix2 (i 0) (i 1))) := by
  unfold takeIdx
  refine (broadcastInDim_apply _ _ _ i (ix2 (i 0) (i 1)) ?_).trans (select_slt_zero 40000#32 (pin (ix2 (i 0) (i 1))))
  intro a
  match a with
  | ⟨0, _⟩ => rfl
  | ⟨1, _⟩ => rfl

def takeOk (pin : S8x150000.Idx → BitVec 32) : S8x150000.Idx → BitVec 1 :=
  Host.reduce IntOp.andi
    (andi (cmpi .sge (takeIdx pin) (broadcastInDim S8x150000x1 ![] Facts₀.bcast_S_S8x150000x1 (constantI S_ 32 0#32)))
      (cmpi .sle (takeIdx pin) (broadcastInDim S8x150000x1 ![0, 1, 2] Facts₀.bcast_S1x1x1_S8x150000x1_0_1_2
        (broadcastInDim S1x1x1 ![2] Facts₀.bcast_S1_S1x1x1_2 (constantI S1 32 39999#32)))))
    (constantI S_ 1 1#1) Facts₀.reducesTo_S8x150000x1_S8x150000_d2 Facts₀.h_S_

theorem takeOk_apply (pin : S8x150000.Idx → BitVec 32) (hin : ∀ i, 0 ≤ (pin i).toInt ∧ (pin i).toInt < 40000)
    (j : S8x150000.Idx) : takeOk pin j = 1#1 := by
  unfold takeOk
  refine reduce_andi_ones _ _ _ _ (fun i => ?_) (fun _ => rfl) j
  show IntOp.andi (IntOp.cmpi .sge (takeIdx pin i) 0#32) (IntOp.cmpi .sle (takeIdx pin i) 39999#32) = 1#1
  rw [takeIdx_eq pin i, wrap_of_nonneg _ _ (hin (ix2 (i 0) (i 1))).1]
  exact range_bit _ (hin (ix2 (i 0) (i 1))).1 (hin (ix2 (i 0) (i 1))).2

def takeFn (y : S8x40000x128.Idx → EReal) (pin : S8x150000.Idx → BitVec 32) : S8x150000x128.Idx → EReal :=
  select (broadcastInDim S8x150000x128 ![0, 1] Facts₀.bcast_S8x150000_S8x150000x128_0_1 (takeOk pin))
    (Host.gather gather_S8x40000x128_S8x150000x1_S8x150000x128_2_1_0_0_1_2_11128 y (takeIdx pin))
    (broadcastInDim S8x150000x128 ![] Facts₀.bcast_S_S8x150000x128 (constant (F := Ideal) S_ .f32 0x7FC00000#32))

-- The range test holds at every pair, so the select keeps the gathered row.
theorem takeFn_apply (y : S8x40000x128.Idx → EReal) (pin : S8x150000.Idx → BitVec 32)
    (hin : ∀ i, 0 ≤ (pin i).toInt ∧ (pin i).toInt < 40000) (k : Fin 8) (p : Fin 150000) (c : Fin 128) :
    takeFn y pin (ix3 k p c) = y (ix3 k (srcRow (pin (ix2 k p))) c) := by
  unfold takeFn
  rw [select_apply]
  have hok : broadcastInDim S8x150000x128 ![0, 1] Facts₀.bcast_S8x150000_S8x150000x128_0_1 (takeOk pin) (ix3 k p c) = 1#1 :=
    (broadcastInDim_apply _ _ (takeOk pin) (ix3 k p c) (ix2 k p)
      (fun a => match a with | ⟨0, _⟩ => rfl | ⟨1, _⟩ => rfl)).trans (takeOk_apply pin hin (ix2 k p))
  rw [hok, select_one]
  refine (gather_batchRow_apply (N := 40000) (by norm_num)
    Facts₀.gather_S8x40000x128_S8x150000x1_S8x150000x128_2_1_0_0_1_2_11128_wf y (takeIdx pin) k p c).trans ?_
  exact congrArg (fun w : BitVec 32 => y (ix3 k (⟨min w.toInt.toNat (40000 - 1), by omega⟩ : Fin 40000) c))
    (takeIdx_eq pin (ix3 k p (⟨0, Nat.one_pos⟩ : Fin 1)))

def flatWords (pout : S8x150000.Idx → BitVec 32) : S1200000.Idx → BitVec 32 :=
  shapeCast S1200000 pout Facts₀.shapeCasts_S8x150000_S1200000

def scatIdx (pout : S8x150000.Idx → BitVec 32) : S1200000x1.Idx → BitVec 32 :=
  broadcastInDim S1200000x1 ![0] Facts₀.bcast_S1200000_S1200000x1_0
    (select (cmpi .slt (flatWords pout) (broadcastInDim S1200000 ![] Facts₀.bcast_S_S1200000 (constantI S_ 32 0#32)))
      (addi (flatWords pout) (broadcastInDim S1200000 ![] Facts₀.bcast_S_S1200000 (constantI S_ 32 150000#32)))
      (flatWords pout))

theorem scatIdx_apply (pout : S8x150000.Idx → BitVec 32) (q : Fin 1200000) :
    scatIdx pout (ix2 q (⟨0, Nat.one_pos⟩ : Fin 1))
      = wrap 150000#32 (pout (ix2 (Cert.LibSums.hi flatN q) (Cert.LibSums.lo 150000 (by norm_num) q))) := by
  unfold scatIdx
  refine (broadcastInDim_apply _ _ _ _ (ix1 q) ?_).trans ?_
  · intro a
    match a with
    | ⟨0, _⟩ => rfl
  · show Scalar.select (IntOp.cmpi .slt (flatWords pout (ix1 q)) 0#32) (IntOp.addi (flatWords pout (ix1 q)) 150000#32)
      (flatWords pout (ix1 q)) = _
    rw [select_slt_zero]
    unfold flatWords
    rw [flat_words]

def scatFn (v : S8x150000x128.Idx → EReal) (pout : S8x150000.Idx → BitVec 32) : S150000x128.Idx → EReal :=
  Host.scatterAdd (F := Ideal) (φ := .f32) scatter_S150000x128_S1200000x1_S1200000x128_1_0_0_1
    (broadcastInDim S150000x128 ![] Facts₀.bcast_S_S150000x128 (constant (F := Ideal) S_ .f32 0x00000000#32))
    (scatIdx pout) (shapeCast S1200000x128 v Facts₀.shapeCasts_S8x150000x128_S1200000x128)

theorem scatter_eq : scatter_S150000x128_S1200000x1_S1200000x128_1_0_0_1
    = Cert.LibScatter.rowScatter 150000 1200000 128 Facts₀.scatter_S150000x128_S1200000x1_S1200000x128_1_0_0_1_wf := rfl

theorem zeros_apply (r : Fin 150000) (c : Fin 128) :
    broadcastInDim S150000x128 ![] Facts₀.bcast_S_S150000x128 (constant (F := Ideal) S_ .f32 0x00000000#32) (ix2 r c)
      = (0 : EReal) := by
  refine (broadcastInDim_apply _ _ (constant (F := Ideal) S_ .f32 0x00000000#32) (ix2 r c) ix0 (fun a => a.elim0)).trans ?_
  rw [constant_apply]
  exact Ideal.ofBits_zero_f32

-- The general row scatter-add lemma at this program's dimension numbers.
theorem scatter_apply (prev : S150000x128.Idx → EReal) (idx : S1200000x1.Idx → BitVec 32)
    (upd : S1200000x128.Idx → EReal) (r : Fin 150000) (c : Fin 128) :
    Host.scatterAdd (F := Ideal) (φ := .f32) scatter_S150000x128_S1200000x1_S1200000x128_1_0_0_1 prev idx upd (ix2 r c)
      = prev (ix2 r c) + ∑ q ∈ Finset.univ.filter (fun q : Fin 1200000 =>
          (idx (ix2 q (⟨0, Nat.one_pos⟩ : Fin 1))).toInt = (r.val : ℤ)), upd (ix2 q c) := by
  unfold Host.scatterAdd
  rw [Ideal.hostScatterAdd_def, scatter_eq]
  exact Cert.LibScatter.scatterAdd_row_apply Facts₀.scatter_S150000x128_S1200000x1_S1200000x128_1_0_0_1_wf prev idx upd r c

theorem scatFn_apply (v : S8x150000x128.Idx → EReal) (pout : S8x150000.Idx → BitVec 32) (r : Fin 150000) (c : Fin 128) :
    scatFn v pout (ix2 r c)
      = ∑ q ∈ Finset.univ.filter (fun q : Fin 1200000 =>
          (scatIdx pout (ix2 q (⟨0, Nat.one_pos⟩ : Fin 1))).toInt = (r.val : ℤ)),
          shapeCast S1200000x128 v Facts₀.shapeCasts_S8x150000x128_S1200000x128 (ix2 q c) := by
  rw [scatFn, scatter_apply, zeros_apply, zero_add]

-- The flat sum over q regrouped as a double sum over (offset, pair).
theorem scat_take_apply (y : S8x40000x128.Idx → EReal) (pin pout : S8x150000.Idx → BitVec 32)
    (hin : ∀ i, 0 ≤ (pin i).toInt ∧ (pin i).toInt < 40000) (r : Fin 150000) (c : Fin 128) :
    scatFn (takeFn y pin) pout (ix2 r c) = convOf y pin pout r c := by
  rw [scatFn_apply]
  unfold convOf
  refine Eq.trans (Finset.sum_congr (Finset.filter_congr fun q _ => ?_) fun q _ => ?_)
    (Cert.LibSums.sum_filter_flat flatN (by norm_num : 0 < 150000)
      (fun (k : Fin 8) (p : Fin 150000) => (wrap 150000#32 (pout (ix2 k p))).toInt = (r.val : ℤ))
      (fun (k : Fin 8) (p : Fin 150000) => y (ix3 k (srcRow (pin (ix2 k p))) c)))
  · rw [scatIdx_apply]
  · rw [flat_rows, takeFn_apply y pin hin]

set_option maxHeartbeats 1000000 in
theorem host1_take : (StableHlo.after hostOps1 W (Proc.devRef .tc main_v1) : S8x150000x128.Idx → EReal)
    = takeFn (W (Proc.devRef .tc main_v0)) (W (Proc.devRef .tc main_arg2)) := by
  after_results
  simp only [ofBuf_toBuf]
  rfl

theorem host1_arg3 : (StableHlo.after hostOps1 W (Proc.devRef .tc main_arg3) : S8x150000.Idx → BitVec 32)
    = W (Proc.devRef .tc main_arg3) := by
  after_results <;> rfl

theorem host1_scat (W' : Valuation τ sig (Elt Ideal)) :
    (StableHlo.after hostOps1_1 W' (Proc.devRef .tc main_v11) : S150000x128.Idx → EReal)
      = scatFn (W' (Proc.devRef .tc main_v1)) (W' (Proc.devRef .tc main_arg3)) := by
  after_results
  rfl

end H1

open H1

theorem host1_conv
    (hin : ∀ i, 0 ≤ ((W (Proc.devRef .tc main_arg2) : S8x150000.Idx → BitVec 32) i).toInt
      ∧ ((W (Proc.devRef .tc main_arg2) : S8x150000.Idx → BitVec 32) i).toInt < 40000) :
    (StableHlo.after hostOps1_1 (StableHlo.after hostOps1 W) (Proc.devRef .tc main_v11) : S150000x128.Idx → EReal)
      = mat (convOf (W (Proc.devRef .tc main_v0)) (W (Proc.devRef .tc main_arg2)) (W (Proc.devRef .tc main_arg3))) := by
  refine (host1_scat (StableHlo.after hostOps1 W)).trans ?_
  rw [host1_take W, host1_arg3 W]
  funext i
  obtain ⟨r, c, rfl⟩ : ∃ (r : Fin 150000) (c : Fin 128), i = ix2 r c := ⟨i 0, i 1, eq_ix2 i⟩
  rw [mat_ix2]
  exact scat_take_apply _ _ _ hin r c

end Cert.KernelIdeal.Val

end
-- ==== Proof.KHost2.lean ====
import proofs.«425338_j83640193122774_2_alg».proof.Proof.Gen.KernelIdeal.Launch
import proofs.«425338_j83640193122774_2_alg».proof.Proof.KSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec

section Patterns

variable {h1 : S1x128.ShapeCasts S128} {h2 : S128.ShapeCasts S1x128}
  {hb : S_.BroadcastsInDim S128 (![] : Fin 0 → Fin S128.rank)}

theorem row_idx (i : S1x128.Idx) : ∃ (u : Fin 1) (c : Fin 128), i = ix2 u c := ⟨i 0, i 1, eq_ix2 i⟩

theorem row_read (g : Row 128) : (fun i => shapeCast S1x128 g h2 i) = rowOf g := by
  funext i
  obtain ⟨u, c, rfl⟩ := row_idx i
  exact shapeCast_a_1a_apply g h2 u c

variable (h1 hb) in
-- Named once: the mean row and the variance row are both built from it.
abbrev meanFlat (s : Mat 1 128) :=
  Host.divf (F := Ideal) (s := S128) (φ := .f32) (fun j => shapeCast S128 s h1 j)
    (broadcastInDim S128 ![] hb (constant (F := Ideal) S_ .f32 0x48127C00#32))

-- A 1×128 array has a single row index, so any unit coordinate reads it.
theorem mean_at (s : Mat 1 128) (u : Fin 1) (c : Fin 128) : meanFlat h1 hb s (ix1 c) = muRow s (ix2 u c) :=
  congrArg (fun t => Ideal.div t cnt)
    ((shapeCast_1a_a_apply s h1 c).trans (congrArg (fun t => s (ix2 t c)) (Subsingleton.elim 0 u)))

theorem mu_read (s : Mat 1 128) : (fun i => shapeCast S1x128 (meanFlat h1 hb s) h2 i) = muRow s := by
  funext i
  obtain ⟨u, c, rfl⟩ := row_idx i
  exact (shapeCast_a_1a_apply _ h2 u c).trans (mean_at s u c)

theorem va_read (s q : Mat 1 128) :
    (fun i => shapeCast S1x128 (subf (F := Ideal) (s := S128) (φ := .f32) (meanFlat h1 hb q)
      (mulf (F := Ideal) (s := S128) (φ := .f32) (meanFlat h1 hb s) (meanFlat h1 hb s))) h2 i) = vaRow s q := by
  funext i
  obtain ⟨u, c, rfl⟩ := row_idx i
  exact (shapeCast_a_1a_apply _ h2 u c).trans (congrArg₂ (fun a b : EReal => a - b * b) (mean_at q u c) (mean_at s u c))

end Patterns

variable (W : Valuation τ sig (Elt Ideal))

theorem host2_mu : (StableHlo.after hostOps2 W (Proc.devRef .tc main_v23) : S1x128.Idx → EReal) = muRow (W (Proc.devRef .tc main_v12_0)) := by
  after_results; exact mu_read _
theorem host2_va : (StableHlo.after hostOps2 W (Proc.devRef .tc main_v24) : S1x128.Idx → EReal)
    = vaRow (W (Proc.devRef .tc main_v12_0)) (W (Proc.devRef .tc main_v12_1)) := by
  after_results; exact va_read _ _
theorem host2_g : (StableHlo.after hostOps2 W (Proc.devRef .tc main_v25) : S1x128.Idx → EReal) = rowOf (W (Proc.devRef .tc main_arg5)) := by
  after_results; exact row_read _
theorem host2_b : (StableHlo.after hostOps2 W (Proc.devRef .tc main_v26) : S1x128.Idx → EReal) = rowOf (W (Proc.devRef .tc main_arg6)) := by
  after_results; exact row_read _
theorem host2_b1 : (StableHlo.after hostOps2 W (Proc.devRef .tc main_v27) : S1x128.Idx → EReal) = rowOf (W (Proc.devRef .tc main_arg8)) := by
  after_results; exact row_read _
theorem host2_Wa : (StableHlo.after hostOps2 W (Proc.devRef .tc main_v21) : S128x128.Idx → EReal) = topHalf (W (Proc.devRef .tc main_arg7)) := by
  after_results
  funext i
  obtain ⟨r, c, rfl⟩ : ∃ r c : Fin 128, i = ix2 r c := ⟨i 0, i 1, eq_ix2 i⟩
  exact slice2_axis0_apply 0 _ _ r c ⟨r.val, by omega⟩ (Nat.zero_add _).symm
theorem host2_Wb : (StableHlo.after hostOps2 W (Proc.devRef .tc main_v22) : S128x128.Idx → EReal) = botHalf (W (Proc.devRef .tc main_arg7)) := by
  after_results
  funext i
  obtain ⟨r, c, rfl⟩ : ∃ r c : Fin 128, i = ix2 r c := ⟨i 0, i 1, eq_ix2 i⟩
  exact slice2_axis0_apply 128 _ _ r c ⟨128 + r.val, by omega⟩ rfl
theorem host3_mu : (StableHlo.after hostOps3 W (Proc.devRef .tc main_v37) : S1x128.Idx → EReal) = muRow (W (Proc.devRef .tc main_v28_2)) := by
  after_results; exact mu_read _
theorem host3_va : (StableHlo.after hostOps3 W (Proc.devRef .tc main_v38) : S1x128.Idx → EReal)
    = vaRow (W (Proc.devRef .tc main_v28_2)) (W (Proc.devRef .tc main_v28_3)) := by
  after_results; exact va_read _ _
theorem host3_g : (StableHlo.after hostOps3 W (Proc.devRef .tc main_v39) : S1x128.Idx → EReal) = rowOf (W (Proc.devRef .tc main_arg9)) := by
  after_results; exact row_read _
theorem host3_b : (StableHlo.after hostOps3 W (Proc.devRef .tc main_v40) : S1x128.Idx → EReal) = rowOf (W (Proc.devRef .tc main_arg10)) := by
  after_results; exact row_read _
theorem host3_b2 : (StableHlo.after hostOps3 W (Proc.devRef .tc main_v41) : S1x128.Idx → EReal) = rowOf (W (Proc.devRef .tc main_arg12)) := by
  after_results; exact row_read _
theorem host4_mu : (StableHlo.after hostOps4 W (Proc.devRef .tc main_v51) : S1x128.Idx → EReal) = muRow (W (Proc.devRef .tc main_v42_1)) := by
  after_results; exact mu_read _
theorem host4_va : (StableHlo.after hostOps4 W (Proc.devRef .tc main_v52) : S1x128.Idx → EReal)
    = vaRow (W (Proc.devRef .tc main_v42_1)) (W (Proc.devRef .tc main_v42_2)) := by
  after_results; exact va_read _ _
theorem host4_g : (StableHlo.after hostOps4 W (Proc.devRef .tc main_v53) : S1x128.Idx → EReal) = rowOf (W (Proc.devRef .tc main_arg13)) := by
  after_results; exact row_read _
theorem host4_b : (StableHlo.after hostOps4 W (Proc.devRef .tc main_v54) : S1x128.Idx → EReal) = rowOf (W (Proc.devRef .tc main_arg14)) := by
  after_results; exact row_read _

end Cert.KernelIdeal.Val

end
-- ==== Proof.KChainA.lean ====
import proofs.«425338_j83640193122774_2_alg».proof.Proof.Gen.KernelIdeal.Frame
import proofs.«425338_j83640193122774_2_alg».proof.Proof.KSpec
import proofs.«425338_j83640193122774_2_alg».proof.Proof.KArgs
import proofs.«425338_j83640193122774_2_alg».proof.Proof.KR0
import proofs.«425338_j83640193122774_2_alg».proof.Proof.KR1
import proofs.«425338_j83640193122774_2_alg».proof.Proof.KHost1
import proofs.«425338_j83640193122774_2_alg».proof.Proof.KHost2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec
open Idealize.ShloMosaic.Pipeline (Dat Cfg Window)

variable (m : (ℓ : Loc nD τ sig) → Buf (Elt Ideal) ℓ) (ρ : Dev nD → PrngReg)

abbrev cv (c : Dev nD) : Mat 150000 128 := convM (aX m c) (aPin m c) (aPout m c) (aWup m c)

macro "no_write " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W3_eq_launch (c : Dev nD) (b : Ref sig .tc)
    (h0 : ∀ w, Pipeline.arrRef spec0 w ≠ b)
    (h1 : ∀ op ∈ (hostOps1 : List (HloOp τ sig (Elt Ideal))), Proc.devRef (τ := τ) .tc b ∉ op.writes)
    (h2 : ∀ op ∈ (hostOps1_1 : List (HloOp τ sig (Elt Ideal))), Proc.devRef (τ := τ) .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := W1_of_ne m ρ c b h0
    _ = m ((c : Thread nD τ).loc b) := rfl

theorem W4_eq_launch (c : Dev nD) (b : Ref sig .tc)
    (h0 : ∀ w, Pipeline.arrRef spec0 w ≠ b)
    (h1 : ∀ op ∈ (hostOps1 : List (HloOp τ sig (Elt Ideal))), Proc.devRef (τ := τ) .tc b ∉ op.writes)
    (h2 : ∀ op ∈ (hostOps1_1 : List (HloOp τ sig (Elt Ideal))), Proc.devRef (τ := τ) .tc b ∉ op.writes)
    (h3 : ∀ w, Pipeline.arrRef spec1 w ≠ b) :
    W4 m ρ c (Proc.devRef .tc b) = m ((c : Thread nD τ).loc b) :=
  (W4_of_ne m ρ c b h3).trans (W3_eq_launch m ρ c b h0 h1 h2)

theorem W5_eq_launch (c : Dev nD) (b : Ref sig .tc)
    (h0 : ∀ w, Pipeline.arrRef spec0 w ≠ b)
    (h1 : ∀ op ∈ (hostOps1 : List (HloOp τ sig (Elt Ideal))), Proc.devRef (τ := τ) .tc b ∉ op.writes)
    (h2 : ∀ op ∈ (hostOps1_1 : List (HloOp τ sig (Elt Ideal))), Proc.devRef (τ := τ) .tc b ∉ op.writes)
    (h3 : ∀ w, Pipeline.arrRef spec1 w ≠ b)
    (h4 : ∀ op ∈ (hostOps2 : List (HloOp τ sig (Elt Ideal))), Proc.devRef (τ := τ) .tc b ∉ op.writes) :
    W5 m ρ c (Proc.devRef .tc b) = m ((c : Thread nD τ).loc b) :=
  (StableHlo.after_of_forall_not_mem (b := Proc.devRef .tc b) _ _ h4).trans (W4_eq_launch m ρ c b h0 h1 h2 h3)

theorem W1_y (c : Dev nD) :
    (W1 m ρ c (Proc.devRef .tc main_v0) : S8x40000x128.Idx → EReal) = tfm (aX m c) (aWup m c) :=
  (W1_arr m ρ c 2).trans (region0_y (V0 m ρ) c)

theorem W1_pin (c : Dev nD) : (W1 m ρ c (Proc.devRef .tc main_arg2) : S8x150000.Idx → BitVec 32) = aPin m c :=
  (W1_of_ne m ρ c main_arg2 (by decide)).trans rfl
theorem W1_pout (c : Dev nD) : (W1 m ρ c (Proc.devRef .tc main_arg3) : S8x150000.Idx → BitVec 32) = aPout m c :=
  (W1_of_ne m ρ c main_arg3 (by decide)).trans rfl

theorem convOf_tfm (x : Mat 40000 128) (Wup : Ten 8 128 128) (pin pout : IMat 8 150000) :
    mat (convOf (tfm x Wup) pin pout) = convM x pin pout Wup := rfl

theorem convOf_congr {y y' : Ten 8 40000 128} {pin pin' pout pout' : IMat 8 150000}
    (hy : y = y') (hpin : pin = pin') (hpout : pout = pout') :
    mat (convOf y pin pout) = mat (convOf y' pin' pout') := by subst hy hpin hpout; rfl

theorem W3_conv (c : Dev nD) (hin : ∀ i, 0 ≤ (aPin m c i).toInt ∧ (aPin m c i).toInt < 40000) :
    (W3 m ρ c (Proc.devRef .tc main_v11) : S150000x128.Idx → EReal) = cv m c := by
  have hin' : ∀ i, 0 ≤ ((W1 m ρ c (Proc.devRef .tc main_arg2) : S8x150000.Idx → BitVec 32) i).toInt
      ∧ ((W1 m ρ c (Proc.devRef .tc main_arg2) : S8x150000.Idx → BitVec 32) i).toInt < 40000 := by
    intro i
    have e : (W1 m ρ c (Proc.devRef .tc main_arg2) : S8x150000.Idx → BitVec 32) i = aPin m c i :=
      congrFun (W1_pin m ρ c) i
    rw [e]; exact hin i
  exact (host1_conv (W1 m ρ c) hin').trans
    ((convOf_congr (W1_y m ρ c) (W1_pin m ρ c) (W1_pout m ρ c)).trans
      (convOf_tfm (aX m c) (aWup m c) (aPin m c) (aPout m c)))

theorem W4_conv (c : Dev nD) (hin : ∀ i, 0 ≤ (aPin m c i).toInt ∧ (aPin m c i).toInt < 40000) :
    (W4 m ρ c (Proc.devRef .tc main_v11) : S150000x128.Idx → EReal) = cv m c :=
  (W4_arr m ρ c 0).trans ((((dat1 (V3 m ρ) c).arrAt_in 0 rfl _).trans (A_eq1 (V3 m ρ) c 0)).trans (W3_conv m ρ c hin))

theorem W4_sum (c : Dev nD) (hin : ∀ i, 0 ≤ (aPin m c i).toInt ∧ (aPin m c i).toInt < 40000) :
    (W4 m ρ c (Proc.devRef .tc main_v12_0) : S1x128.Idx → EReal) = colSum (cv m c) :=
  (W4_arr m ρ c 1).trans ((region1_sum (V3 m ρ) c).trans (congrArg colSum (W3_conv m ρ c hin)))

theorem W4_sumsq (c : Dev nD) (hin : ∀ i, 0 ≤ (aPin m c i).toInt ∧ (aPin m c i).toInt < 40000) :
    (W4 m ρ c (Proc.devRef .tc main_v12_1) : S1x128.Idx → EReal) = colSumSq (cv m c) :=
  (W4_arr m ρ c 2).trans ((region1_sumsq (V3 m ρ) c).trans (congrArg colSumSq (W3_conv m ρ c hin)))

theorem W4_arg5 (c : Dev nD) : (W4 m ρ c (Proc.devRef .tc main_arg5) : S128.Idx → EReal) = aG0 m c :=
  W4_eq_launch m ρ c main_arg5 (by decide) (by no_write hostOps1) (by no_write hostOps1_1) (by decide)
theorem W4_arg6 (c : Dev nD) : (W4 m ρ c (Proc.devRef .tc main_arg6) : S128.Idx → EReal) = aB0 m c :=
  W4_eq_launch m ρ c main_arg6 (by decide) (by no_write hostOps1) (by no_write hostOps1_1) (by decide)
theorem W4_arg7 (c : Dev nD) : (W4 m ρ c (Proc.devRef .tc main_arg7) : S256x128.Idx → EReal) = aW1 m c :=
  W4_eq_launch m ρ c main_arg7 (by decide) (by no_write hostOps1) (by no_write hostOps1_1) (by decide)
theorem W4_arg8 (c : Dev nD) : (W4 m ρ c (Proc.devRef .tc main_arg8) : S128.Idx → EReal) = aB1 m c :=
  W4_eq_launch m ρ c main_arg8 (by decide) (by no_write hostOps1) (by no_write hostOps1_1) (by decide)

theorem W5_conv (c : Dev nD) (hin : ∀ i, 0 ≤ (aPin m c i).toInt ∧ (aPin m c i).toInt < 40000) :
    (W5 m ρ c (Proc.devRef .tc main_v11) : S150000x128.Idx → EReal) = cv m c :=
  (StableHlo.after_of_forall_not_mem (b := Proc.devRef .tc main_v11) _ _ (by no_write hostOps2)).trans
    (W4_conv m ρ c hin)
theorem W5_mu (c : Dev nD) (hin : ∀ i, 0 ≤ (aPin m c i).toInt ∧ (aPin m c i).toInt < 40000) :
    (W5 m ρ c (Proc.devRef .tc main_v23) : S1x128.Idx → EReal) = muRow (colSum (cv m c)) :=
  (host2_mu (W4 m ρ c)).trans (congrArg muRow (W4_sum m ρ c hin))
theorem W5_va (c : Dev nD) (hin : ∀ i, 0 ≤ (aPin m c i).toInt ∧ (aPin m c i).toInt < 40000) :
    (W5 m ρ c (Proc.devRef .tc main_v24) : S1x128.Idx → EReal) = vaRow (colSum (cv m c)) (colSumSq (cv m c)) :=
  (host2_va (W4 m ρ c)).trans (congrArg₂ vaRow (W4_sum m ρ c hin) (W4_sumsq m ρ c hin))
theorem W5_g (c : Dev nD) : (W5 m ρ c (Proc.devRef .tc main_v25) : S1x128.Idx → EReal) = rowOf (aG0 m c) :=
  (host2_g (W4 m ρ c)).trans (congrArg rowOf (W4_arg5 m ρ c))
theorem W5_b (c : Dev nD) : (W5 m ρ c (Proc.devRef .tc main_v26) : S1x128.Idx → EReal) = rowOf (aB0 m c) :=
  (host2_b (W4 m ρ c)).trans (congrArg rowOf (W4_arg6 m ρ c))
theorem W5_b1 (c : Dev nD) : (W5 m ρ c (Proc.devRef .tc main_v27) : S1x128.Idx → EReal) = rowOf (aB1 m c) :=
  (host2_b1 (W4 m ρ c)).trans (congrArg rowOf (W4_arg8 m ρ c))
theorem W5_Wa (c : Dev nD) : (W5 m ρ c (Proc.devRef .tc main_v21) : S128x128.Idx → EReal) = topHalf (aW1 m c) :=
  (host2_Wa (W4 m ρ c)).trans (congrArg topHalf (W4_arg7 m ρ c))
theorem W5_Wb (c : Dev nD) : (W5 m ρ c (Proc.devRef .tc main_v22) : S128x128.Idx → EReal) = botHalf (aW1 m c) :=
  (host2_Wb (W4 m ρ c)).trans (congrArg botHalf (W4_arg7 m ρ c))
theorem W5_skip (c : Dev nD) : (W5 m ρ c (Proc.devRef .tc main_arg1) : S150000x128.Idx → EReal) = aSkip m c :=
  W5_eq_launch m ρ c main_arg1 (by decide) (by no_write hostOps1) (by no_write hostOps1_1) (by decide) (by no_write hostOps2)
theorem W5_arg9 (c : Dev nD) : W5 m ρ c (Proc.devRef .tc main_arg9) = m ((c : Thread nD τ).loc main_arg9) :=
  W5_eq_launch m ρ c main_arg9 (by decide) (by no_write hostOps1) (by no_write hostOps1_1) (by decide) (by no_write hostOps2)
theorem W5_arg10 (c : Dev nD) : W5 m ρ c (Proc.devRef .tc main_arg10) = m ((c : Thread nD τ).loc main_arg10) :=
  W5_eq_launch m ρ c main_arg10 (by decide) (by no_write hostOps1) (by no_write hostOps1_1) (by decide) (by no_write hostOps2)
theorem W5_arg11 (c : Dev nD) : W5 m ρ c (Proc.devRef .tc main_arg11) = m ((c : Thread nD τ).loc main_arg11) :=
  W5_eq_launch m ρ c main_arg11 (by decide) (by no_write hostOps1) (by no_write hostOps1_1) (by decide) (by no_write hostOps2)
theorem W5_arg12 (c : Dev nD) : W5 m ρ c (Proc.devRef .tc main_arg12) = m ((c : Thread nD τ).loc main_arg12) :=
  W5_eq_launch m ρ c main_arg12 (by decide) (by no_write hostOps1) (by no_write hostOps1_1) (by decide) (by no_write hostOps2)
theorem W5_arg13 (c : Dev nD) : W5 m ρ c (Proc.devRef .tc main_arg13) = m ((c : Thread nD τ).loc main_arg13) :=
  W5_eq_launch m ρ c main_arg13 (by decide) (by no_write hostOps1) (by no_write hostOps1_1) (by decide) (by no_write hostOps2)
theorem W5_arg14 (c : Dev nD) : W5 m ρ c (Proc.devRef .tc main_arg14) = m ((c : Thread nD τ).loc main_arg14) :=
  W5_eq_launch m ρ c main_arg14 (by decide) (by no_write hostOps1) (by no_write hostOps1_1) (by decide) (by no_write hostOps2)

end Cert.KernelIdeal.Val

end
-- ==== Proof.KR2.lean ====
import proofs.«425338_j83640193122774_2_alg».proof.Proof.Gen.KernelIdeal.Frame
import proofs.«425338_j83640193122774_2_alg».proof.Proof.KSpec
import proofs.«425338_j83640193122774_2_alg».proof.Proof.LibSums
import proofs.«425338_j83640193122774_2_alg».proof.Proof.LibBlockOps
import proofs.«425338_j83640193122774_2_alg».proof.Proof.LibAcc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec
open Idealize.ShloMosaic.Pipeline (Dat Cfg Window)

variable (V : (c : Dev nD) → (b : Ref sig .tc) → Buf (Elt Ideal) ((c : Thread nD τ).loc b))

abbrev upV (c : Dev nD) : Mat 150000 128 :=
  mat (norm (V c main_v11) (V c main_v23) (V c main_v24) (V c main_v25) (V c main_v26))
abbrev h1V (c : Dev nD) : Mat 150000 128 :=
  mat (aff1 (upV V c) (V c main_arg1) (V c main_v21) (V c main_v22) (V c main_v27))

namespace R2

section Pieces
variable (c : Dev nD) (t : Fin cfg2.N)

theorem hz2 : (![0, 0] : Fin 2 → Nat) = fun _ => 0 := funext fun a => by fin_cases a <;> rfl

/-- The normalised block of point t. -/
abbrev nb : FVec Ideal S10000x128 .f32 := k2_pay6 (iblk2 (F := Ideal) V c 0 t) (iblk2 (F := Ideal) V c 2 t) (iblk2 (F := Ideal) V c 3 t) (iblk2 (F := Ideal) V c 4 t) (iblk2 (F := Ideal) V c 5 t)
/-- The affine block of point t. -/
abbrev ab : FVec Ideal S10000x128 .f32 := k2_pay1 (iblk2 (F := Ideal) V c 1 t) (k2_pay7 (iblk2 (F := Ideal) V c 7 t)) (k2_pay8 (iblk2 (F := Ideal) V c 0 t) (iblk2 (F := Ideal) V c 2 t) (iblk2 (F := Ideal) V c 3 t) (iblk2 (F := Ideal) V c 4 t) (iblk2 (F := Ideal) V c 5 t) (iblk2 (F := Ideal) V c 6 t)) (constant (F := Ideal) S10000x128 .f32 0x00000000#32) (iblk2 (F := Ideal) V c 8 t)
/-- A 1×128 row plus the affine block's column sums, resp. column sums of squares. -/
abbrev sums (w : FVec Ideal S1x128 .f32) : FVec Ideal S1x128 .f32 := k2_pay2 (iblk2 (F := Ideal) V c 1 t) (k2_pay7 (iblk2 (F := Ideal) V c 7 t)) (k2_pay8 (iblk2 (F := Ideal) V c 0 t) (iblk2 (F := Ideal) V c 2 t) (iblk2 (F := Ideal) V c 3 t) (iblk2 (F := Ideal) V c 4 t) (iblk2 (F := Ideal) V c 5 t) (iblk2 (F := Ideal) V c 6 t)) (constant (F := Ideal) S10000x128 .f32 0x00000000#32) (iblk2 (F := Ideal) V c 8 t) w
abbrev sqs (w : FVec Ideal S1x128 .f32) : FVec Ideal S1x128 .f32 := k2_pay3 (iblk2 (F := Ideal) V c 1 t) (k2_pay7 (iblk2 (F := Ideal) V c 7 t)) (k2_pay8 (iblk2 (F := Ideal) V c 0 t) (iblk2 (F := Ideal) V c 2 t) (iblk2 (F := Ideal) V c 3 t) (iblk2 (F := Ideal) V c 4 t) (iblk2 (F := Ideal) V c 5 t) (iblk2 (F := Ideal) V c 6 t)) (constant (F := Ideal) S10000x128 .f32 0x00000000#32) (iblk2 (F := Ideal) V c 8 t) w

/-- The block each output receives at point t, at the first point (A) and at a later one (B). -/
theorem out9_A (h0 : t.val % 15 = 0) : (outsAt2 (F := Ideal) V c t.val t.isLt).1 = nb V c t := by
  rw [outsAt2_A V c t h0]
  dsimp only
  unfold out2_A_9
  rw [View.read_writes_eq_canon _ _ _ (cover2_A_9 c _ _ _ _ _ _ _ _ _ _ _ _ _ _ _ _ _ _ _ _ _ _ _ _ _ _ _ _ _ _ _ _ _ _ _ _ _)]
  unfold kernelRun2_A
  dsimp only
  sl_unfold_words
  rw [View.canon_unit_zero hz2]
  simp only [View.readAt_eq_ld, Memref.IsWhole.read_unread, View.ld_unit_zero (S := S10000x128) hz2, View.ld_unit_zero (S := S1x128) hz2, View.ld_unit_zero (S := S128x128) hz2]
theorem out10_A (h0 : t.val % 15 = 0) : (outsAt2 (F := Ideal) V c t.val t.isLt).2.1 = ab V c t := by
  rw [outsAt2_A V c t h0]
  dsimp only
  unfold out2_A_10
  rw [View.read_writes_eq_canon _ _ _ (cover2_A_10 c _ _ _ _ _ _ _ _ _ _ _ _ _ _ _ _ _ _ _ _ _ _ _ _ _ _ _ _ _ _ _ _ _ _ _ _ _)]
  unfold kernelRun2_A
  dsimp only
  sl_unfold_words
  rw [View.canon_unit_zero hz2]
  simp only [View.readAt_eq_ld, Memref.IsWhole.read_unread, View.ld_unit_zero (S := S10000x128) hz2, View.ld_unit_zero (S := S1x128) hz2, View.ld_unit_zero (S := S128x128) hz2]
theorem out11_A (h0 : t.val % 15 = 0) : (outsAt2 (F := Ideal) V c t.val t.isLt).2.2.1 = sums V c t k2_pay4 := by
  rw [outsAt2_A V c t h0]
  dsimp only
  unfold out2_A_11
  rw [View.read_writes_eq_canon _ _ _ (cover2_A_11 c _ _ _ _ _ _ _ _ _ _ _ _ _ _ _ _ _ _ _ _ _ _ _ _ _ _ _ _ _ _ _ _ _ _ _ _ _)]
  unfold kernelRun2_A
  dsimp only
  sl_unfold_words
  rw [View.canon_cons_unit_zero (S := S1x128) hz2, View.readCov_unit_zero (S := S1x128) _ hz2]
  simp only [View.readAt_eq_ld, Memref.IsWhole.read_unread, View.ld_unit_zero (S := S10000x128) hz2, View.ld_unit_zero (S := S1x128) hz2, View.ld_unit_zero (S := S128x128) hz2]
theorem out12_A (h0 : t.val % 15 = 0) : (outsAt2 (F := Ideal) V c t.val t.isLt).2.2.2 = sqs V c t k2_pay5 := by
  rw [outsAt2_A V c t h0]
  dsimp only
  unfold out2_A_12
  rw [View.read_writes_eq_canon _ _ _ (cover2_A_12 c _ _ _ _ _ _ _ _ _ _ _ _ _ _ _ _ _ _ _ _ _ _ _ _ _ _ _ _ _ _ _ _ _ _ _ _ _)]
  unfold kernelRun2_A
  dsimp only
  sl_unfold_words
  rw [View.canon_cons_unit_zero (S := S1x128) hz2, View.readCov_unit_zero (S := S1x128) _ hz2]
  simp only [View.readAt_eq_ld, Memref.IsWhole.read_unread, View.ld_unit_zero (S := S10000x128) hz2, View.ld_unit_zero (S := S1x128) hz2, View.ld_unit_zero (S := S128x128) hz2]
theorem out9_B (h0 : ¬t.val % 15 = 0) : (outsAt2 (F := Ideal) V c t.val t.isLt).1 = nb V c t := by
  rw [outsAt2_B V c t h0]
  dsimp only
  unfold out2_B_9
  rw [View.read_writes_eq_canon _ _ _ (cover2_B_9 c _ _ _ _ _ _ _ _ _ _ _ _ _ _ _ _ _ _ _ _ _ _ _ _ _ _ _ _ _ _ _ _ _ _ _ _ _ _ _)]
  unfold kernelRun2_B
  dsimp only
  sl_unfold_words
  rw [View.canon_unit_zero hz2]
  simp only [View.readAt_eq_ld, Memref.IsWhole.read_unread, View.ld_unit_zero (S := S10000x128) hz2, View.ld_unit_zero (S := S1x128) hz2, View.ld_unit_zero (S := S128x128) hz2]
theorem out10_B (h0 : ¬t.val % 15 = 0) : (outsAt2 (F := Ideal) V c t.val t.isLt).2.1 = ab V c t := by
  rw [outsAt2_B V c t h0]
  dsimp only
  unfold out2_B_10
  rw [View.read_writes_eq_canon _ _ _ (cover2_B_10 c _ _ _ _ _ _ _ _ _ _ _ _ _ _ _ _ _ _ _ _ _ _ _ _ _ _ _ _ _ _ _ _ _ _ _ _ _ _ _)]
  unfold kernelRun2_B
  dsimp only
  sl_unfold_words
  rw [View.canon_unit_zero hz2]
  simp only [View.readAt_eq_ld, Memref.IsWhole.read_unread, View.ld_unit_zero (S := S10000x128) hz2, View.ld_unit_zero (S := S1x128) hz2, View.ld_unit_zero (S := S128x128) hz2]
theorem out11_B (h0 : ¬t.val % 15 = 0) : (outsAt2 (F := Ideal) V c t.val t.isLt).2.2.1 = sums V c t (outsAt2 (F := Ideal) V c (t.val - 1) (Nat.lt_of_le_of_lt (Nat.sub_le _ _) t.isLt)).2.2.1 := by
  rw [outsAt2_B V c t h0]
  dsimp only
  unfold out2_B_11
  rw [View.read_writes_eq_canon _ _ _ (cover2_B_11 c _ _ _ _ _ _ _ _ _ _ _ _ _ _ _ _ _ _ _ _ _ _ _ _ _ _ _ _ _ _ _ _ _ _ _ _ _ _ _)]
  unfold kernelRun2_B
  dsimp only
  sl_unfold_words
  rw [View.canon_unit_zero hz2]
  simp only [View.readAt_eq_ld, Memref.IsWhole.read_unread, View.ld_unit_zero (S := S10000x128) hz2, View.ld_unit_zero (S := S1x128) hz2, View.ld_unit_zero (S := S128x128) hz2]
theorem out12_B (h0 : ¬t.val % 15 = 0) : (outsAt2 (F := Ideal) V c t.val t.isLt).2.2.2 = sqs V c t (outsAt2 (F := Ideal) V c (t.val - 1) (Nat.lt_of_le_of_lt (Nat.sub_le _ _) t.isLt)).2.2.2 := by
  rw [outsAt2_B V c t h0]
  dsimp only
  unfold out2_B_12
  rw [View.read_writes_eq_canon _ _ _ (cover2_B_12 c _ _ _ _ _ _ _ _ _ _ _ _ _ _ _ _ _ _ _ _ _ _ _ _ _ _ _ _ _ _ _ _ _ _ _ _ _ _ _)]
  unfold kernelRun2_B
  dsimp only
  sl_unfold_words
  rw [View.canon_unit_zero hz2]
  simp only [View.readAt_eq_ld, Memref.IsWhole.read_unread, View.ld_unit_zero (S := S10000x128) hz2, View.ld_unit_zero (S := S1x128) hz2, View.ld_unit_zero (S := S128x128) hz2]

end Pieces

section Payloads

theorem lift_rows (q : Fin 128) (k : Fin 10000) :
    reduces_S10000x128_S128.lift (ix1 q) k = (ix2 k q : S10000x128.Idx) :=
  Shape.idx_ext₂ rfl rfl

/-- A block reduced over its rows, read at a column, is the sum down that column. -/
theorem colReduce_apply (src : FVec Ideal S10000x128 .f32) (u : Fin 1) (q : Fin 128) :
    shapeCast S1x128 (multiReduction (F := Ideal) .add [0] S128 src 0x00000000#32 reduces_S10000x128_S128 (.inl rfl) rfl)
        shapeCasts_S128_S1x128 (ix2 u q) = ∑ p : Fin 10000, src (ix2 p q) :=
  ((shapeCast_a_1a_apply _ shapeCasts_S128_S1x128 u q).trans
    (Ideal.multiReduction_add_single src 0x00000000#32 reduces_S10000x128_S128 (.inl rfl) rfl (ix1 q))).trans
    (Finset.sum_congr rfl fun k _ => congrArg src (lift_rows q k))

theorem pay6_apply (x0 : FVec Ideal S10000x128 .f32) (x2 x3 x4 x5 : FVec Ideal S1x128 .f32) (p : Fin 10000) (q : Fin 128) :
    k2_pay6 (F := Ideal) x0 x2 x3 x4 x5 (ix2 p q)
      = max ((x0 (ix2 p q) - x2 (ix2 z1 q)) * Ideal.rsqrt (x3 (ix2 z1 q) + eps) * x4 (ix2 z1 q) + x5 (ix2 z1 q)) 0 := by
  unfold k2_pay6
  simp only [shapeCast_self, maximumf_apply, addf_apply, mulf_apply, subf_apply, broadcast_apply, broadcastTo_1b_ab_apply]
  show max ((x0 (ix2 p q) - x2 (ix2 z1 q)) * Ideal.rsqrt (x3 (ix2 z1 q) + eps) * x4 (ix2 z1 q) + x5 (ix2 z1 q))
      (Ideal.ofBits .f32 0x00000000#32) = _
  rw [Ideal.ofBits_zero_f32]

theorem pay8_apply (x0 : FVec Ideal S10000x128 .f32) (x2 x3 x4 x5 : FVec Ideal S1x128 .f32) (x6 : FVec Ideal S128x128 .f32)
    (p : Fin 10000) (q : Fin 128) :
    k2_pay8 (F := Ideal) x0 x2 x3 x4 x5 x6 (ix2 p q)
      = ∑ j : Fin 128, k2_pay6 (F := Ideal) x0 x2 x3 x4 x5 (ix2 p j) * x6 (ix2 j q) := by
  unfold k2_pay8
  simp only [shapeCast_self]
  exact BlockOps.matmul_zero_apply (m := 10000) (k := 128) (n := 128) dot_S10000x128_S128x128_S10000x128_1_0_0_1_n_n_wf none _ x6 p q

section Affine
variable (v27 : FVec Ideal S10000x128 .f32) (v31 : FVec Ideal S128x128 .f32) (v32 : FVec Ideal S10000x128 .f32)
  (v35 w : FVec Ideal S1x128 .f32) (u : Fin 1) (q : Fin 128)

theorem pay1_apply (p : Fin 10000) :
    k2_pay1 (F := Ideal) v27 v31 v32 (constant (F := Ideal) S10000x128 .f32 0x00000000#32) v35 (ix2 p q)
      = (v32 (ix2 p q) + ∑ j : Fin 128, v27 (ix2 p j) * v31 (ix2 j q)) + v35 (ix2 z1 q) := by
  unfold k2_pay1
  simp only [shapeCast_self, addf_apply, broadcastTo_1b_ab_apply]
  exact congrArg₂ (· + ·) (congrArg (v32 (ix2 p q) + ·)
    (BlockOps.matmul_zero_apply (m := 10000) (k := 128) (n := 128) dot_S10000x128_S128x128_S10000x128_1_0_0_1_n_n_wf none v27 v31 p q)) rfl

theorem pay2_apply :
    k2_pay2 (F := Ideal) v27 v31 v32 (constant (F := Ideal) S10000x128 .f32 0x00000000#32) v35 w (ix2 u q)
      = w (ix2 u q) + ∑ p : Fin 10000, k2_pay1 (F := Ideal) v27 v31 v32 (constant (F := Ideal) S10000x128 .f32 0x00000000#32) v35 (ix2 p q) := by
  unfold k2_pay2
  simp only [shapeCast_self, addf_apply]
  exact congrArg (w (ix2 u q) + ·) (colReduce_apply _ u q)

theorem pay3_apply :
    k2_pay3 (F := Ideal) v27 v31 v32 (constant (F := Ideal) S10000x128 .f32 0x00000000#32) v35 w (ix2 u q)
      = w (ix2 u q) + ∑ p : Fin 10000, k2_pay1 (F := Ideal) v27 v31 v32 (constant (F := Ideal) S10000x128 .f32 0x00000000#32) v35 (ix2 p q)
          * k2_pay1 (F := Ideal) v27 v31 v32 (constant (F := Ideal) S10000x128 .f32 0x00000000#32) v35 (ix2 p q) := by
  unfold k2_pay3
  simp only [shapeCast_self, addf_apply]
  exact congrArg (w (ix2 u q) + ·) (colReduce_apply (mulf _ _) u q)

end Affine

theorem pay4_apply (i : S1x128.Idx) : k2_pay4 (F := Ideal) i = 0 := Ideal.ofBits_zero_f32
theorem pay5_apply (i : S1x128.Idx) : k2_pay5 (F := Ideal) i = 0 := Ideal.ofBits_zero_f32

theorem pay7_eq (x : FVec Ideal S128x128 .f32) : k2_pay7 (F := Ideal) x = x := shapeCast_self _ _

end Payloads

section Blocks

theorem rows_tiled : 150000 = 15 * 10000 := by norm_num

/-- Row p of tile s. -/
abbrev row (s : Fin 15) (p : Fin 10000) : Fin 150000 := Cert.LibSums.flat rows_tiled s p

/-- A grid point as a tile number. -/
abbrev pt (t : Fin cfg2.N) : Fin 15 := ⟨t.val, lt_of_lt_of_eq t.isLt N_2⟩

theorem idx2_0 : ∀ t : Fin grid2.N, win2_0.index t (0 : Fin 2) = t.val ∧ win2_0.index t (1 : Fin 2) = 0 := by decide +kernel
theorem idx2_1 : ∀ t : Fin grid2.N, win2_1.index t (0 : Fin 2) = t.val ∧ win2_1.index t (1 : Fin 2) = 0 := by decide +kernel
theorem idx2_9 : ∀ t : Fin grid2.N, win2_9.index t (0 : Fin 2) = t.val ∧ win2_9.index t (1 : Fin 2) = 0 := by decide +kernel
theorem idx2_10 : ∀ t : Fin grid2.N, win2_10.index t (0 : Fin 2) = t.val ∧ win2_10.index t (1 : Fin 2) = 0 := by decide +kernel
theorem idx2_2 : ∀ t : Fin grid2.N, win2_2.index t (0 : Fin 2) = 0 ∧ win2_2.index t (1 : Fin 2) = 0 := by decide +kernel
theorem idx2_3 : ∀ t : Fin grid2.N, win2_3.index t (0 : Fin 2) = 0 ∧ win2_3.index t (1 : Fin 2) = 0 := by decide +kernel
theorem idx2_4 : ∀ t : Fin grid2.N, win2_4.index t (0 : Fin 2) = 0 ∧ win2_4.index t (1 : Fin 2) = 0 := by decide +kernel
theorem idx2_5 : ∀ t : Fin grid2.N, win2_5.index t (0 : Fin 2) = 0 ∧ win2_5.index t (1 : Fin 2) = 0 := by decide +kernel
theorem idx2_6 : ∀ t : Fin grid2.N, win2_6.index t (0 : Fin 2) = 0 ∧ win2_6.index t (1 : Fin 2) = 0 := by decide +kernel
theorem idx2_7 : ∀ t : Fin grid2.N, win2_7.index t (0 : Fin 2) = 0 ∧ win2_7.index t (1 : Fin 2) = 0 := by decide +kernel
theorem idx2_8 : ∀ t : Fin grid2.N, win2_8.index t (0 : Fin 2) = 0 ∧ win2_8.index t (1 : Fin 2) = 0 := by decide +kernel
theorem idx2_11 : ∀ t : Fin grid2.N, win2_11.index t (0 : Fin 2) = 0 ∧ win2_11.index t (1 : Fin 2) = 0 := by decide +kernel
theorem idx2_12 : ∀ t : Fin grid2.N, win2_12.index t (0 : Fin 2) = 0 ∧ win2_12.index t (1 : Fin 2) = 0 := by decide +kernel

variable (c : Dev nD) (t : Fin cfg2.N) (p : Fin 10000) (q : Fin 128)

/-- An entry of a block sits, on each axis, at the block index times the block's extent plus its own coordinate. -/
theorem blk0_apply : (iblk2 (F := Ideal) V c 0 t : FVec Ideal S10000x128 .f32) (ix2 p q) = V c main_v11 (ix2 (row (pt t) p) q) :=
  congrArg (V c main_v11) (Shape.idx_ext₂ ((win2_0.rect_emb_val t (ix2 p q) (0 : Fin 2)).trans (congrArg (· * 10000 + p.val) (idx2_0 t).1))
    (win2_0.rect_emb_val_of_index_zero t (1 : Fin 2) (idx2_0 t).2 _))
theorem blk1_apply : (iblk2 (F := Ideal) V c 1 t : FVec Ideal S10000x128 .f32) (ix2 p q) = V c main_arg1 (ix2 (row (pt t) p) q) :=
  congrArg (V c main_arg1) (Shape.idx_ext₂ ((win2_1.rect_emb_val t (ix2 p q) (0 : Fin 2)).trans (congrArg (· * 10000 + p.val) (idx2_1 t).1))
    (win2_1.rect_emb_val_of_index_zero t (1 : Fin 2) (idx2_1 t).2 _))
theorem blk2_apply (u : Fin 1) : (iblk2 (F := Ideal) V c 2 t : FVec Ideal S1x128 .f32) (ix2 u q) = V c main_v23 (ix2 u q) :=
  congrArg (V c main_v23) (Shape.idx_ext₂ (win2_2.rect_emb_val_of_index_zero t (0 : Fin 2) (idx2_2 t).1 _)
    (win2_2.rect_emb_val_of_index_zero t (1 : Fin 2) (idx2_2 t).2 _))
theorem blk3_apply (u : Fin 1) : (iblk2 (F := Ideal) V c 3 t : FVec Ideal S1x128 .f32) (ix2 u q) = V c main_v24 (ix2 u q) :=
  congrArg (V c main_v24) (Shape.idx_ext₂ (win2_3.rect_emb_val_of_index_zero t (0 : Fin 2) (idx2_3 t).1 _)
    (win2_3.rect_emb_val_of_index_zero t (1 : Fin 2) (idx2_3 t).2 _))
theorem blk4_apply (u : Fin 1) : (iblk2 (F := Ideal) V c 4 t : FVec Ideal S1x128 .f32) (ix2 u q) = V c main_v25 (ix2 u q) :=
  congrArg (V c main_v25) (Shape.idx_ext₂ (win2_4.rect_emb_val_of_index_zero t (0 : Fin 2) (idx2_4 t).1 _)
    (win2_4.rect_emb_val_of_index_zero t (1 : Fin 2) (idx2_4 t).2 _))
theorem blk5_apply (u : Fin 1) : (iblk2 (F := Ideal) V c 5 t : FVec Ideal S1x128 .f32) (ix2 u q) = V c main_v26 (ix2 u q) :=
  congrArg (V c main_v26) (Shape.idx_ext₂ (win2_5.rect_emb_val_of_index_zero t (0 : Fin 2) (idx2_5 t).1 _)
    (win2_5.rect_emb_val_of_index_zero t (1 : Fin 2) (idx2_5 t).2 _))
theorem blk6_apply (u : Fin 128) : (iblk2 (F := Ideal) V c 6 t : FVec Ideal S128x128 .f32) (ix2 u q) = V c main_v21 (ix2 u q) :=
  congrArg (V c main_v21) (Shape.idx_ext₂ (win2_6.rect_emb_val_of_index_zero t (0 : Fin 2) (idx2_6 t).1 _)
    (win2_6.rect_emb_val_of_index_zero t (1 : Fin 2) (idx2_6 t).2 _))
theorem blk7_apply (u : Fin 128) : (iblk2 (F := Ideal) V c 7 t : FVec Ideal S128x128 .f32) (ix2 u q) = V c main_v22 (ix2 u q) :=
  congrArg (V c main_v22) (Shape.idx_ext₂ (win2_7.rect_emb_val_of_index_zero t (0 : Fin 2) (idx2_7 t).1 _)
    (win2_7.rect_emb_val_of_index_zero t (1 : Fin 2) (idx2_7 t).2 _))
theorem blk8_apply (u : Fin 1) : (iblk2 (F := Ideal) V c 8 t : FVec Ideal S1x128 .f32) (ix2 u q) = V c main_v27 (ix2 u q) :=
  congrArg (V c main_v27) (Shape.idx_ext₂ (win2_8.rect_emb_val_of_index_zero t (0 : Fin 2) (idx2_8 t).1 _)
    (win2_8.rect_emb_val_of_index_zero t (1 : Fin 2) (idx2_8 t).2 _))
theorem emb9_apply : ((cfg2.win 9).blk t).view.emb (ix2 p q) = (ix2 (row (pt t) p) q : S150000x128.Idx) :=
  Shape.idx_ext₂ ((win2_9.rect_emb_val t (ix2 p q) (0 : Fin 2)).trans (congrArg (· * 10000 + p.val) (idx2_9 t).1))
    (win2_9.rect_emb_val_of_index_zero t (1 : Fin 2) (idx2_9 t).2 _)
theorem emb10_apply : ((cfg2.win 10).blk t).view.emb (ix2 p q) = (ix2 (row (pt t) p) q : S150000x128.Idx) :=
  Shape.idx_ext₂ ((win2_10.rect_emb_val t (ix2 p q) (0 : Fin 2)).trans (congrArg (· * 10000 + p.val) (idx2_10 t).1))
    (win2_10.rect_emb_val_of_index_zero t (1 : Fin 2) (idx2_10 t).2 _)
theorem emb11_apply (u : Fin 1) : ((cfg2.win 11).blk t).view.emb (ix2 u q) = (ix2 u q : S1x128.Idx) :=
  Shape.idx_ext₂ (win2_11.rect_emb_val_of_index_zero t (0 : Fin 2) (idx2_11 t).1 _) (win2_11.rect_emb_val_of_index_zero t (1 : Fin 2) (idx2_11 t).2 _)
theorem emb12_apply (u : Fin 1) : ((cfg2.win 12).blk t).view.emb (ix2 u q) = (ix2 u q : S1x128.Idx) :=
  Shape.idx_ext₂ (win2_12.rect_emb_val_of_index_zero t (0 : Fin 2) (idx2_12 t).1 _) (win2_12.rect_emb_val_of_index_zero t (1 : Fin 2) (idx2_12 t).2 _)

/-- Every row lies in some tile: row r is row r % 10000 of tile r / 10000. -/
theorem tile_of (i : S150000x128.Idx) : ∃ (t : Fin cfg2.N) (p : Fin 10000) (q : Fin 128), i = ix2 (row (pt t) p) q := by
  have hi : (i 0).val < 150000 := (i 0).isLt
  have ht : (i 0).val / 10000 < cfg2.N := by rw [show cfg2.N = 15 from N_2]; omega
  exact ⟨⟨_, ht⟩, ⟨(i 0).val % 10000, Nat.mod_lt _ (by norm_num)⟩, i 1, Shape.idx_ext₂ (Nat.div_add_mod' _ _).symm rfl⟩

end Blocks

section BigOutputs
variable (c : Dev nD) (t : Fin cfg2.N) (p : Fin 10000) (q : Fin 128)

/-- The normalised block of point t is that point's rows of the up-sampled features. -/
theorem up_blk : nb V c t (ix2 p q) = upV V c (ix2 (row (pt t) p) q) := by
  refine (pay6_apply _ _ _ _ _ p q).trans ?_
  rw [blk0_apply, blk2_apply, blk3_apply, blk4_apply, blk5_apply]
  rfl

/-- The affine block of point t is that point's rows of the first hidden array: both contractions run over the same 128 columns. -/
theorem h1_blk : ab V c t (ix2 p q) = h1V V c (ix2 (row (pt t) p) q) := by
  refine (pay1_apply _ _ _ _ q p).trans ?_
  rw [pay8_apply, pay7_eq]
  show _ = aff1 (upV V c) (V c main_arg1) (V c main_v21) (V c main_v22) (V c main_v27) (row (pt t) p) q
  unfold aff1
  exact congrArg₂ (· + ·) (congrArg₂ (· + ·)
    (Finset.sum_congr rfl fun j _ => congrArg₂ (· * ·) (up_blk V c t p j) (blk6_apply V c t q j))
    (Finset.sum_congr rfl fun j _ => congrArg₂ (· * ·) (blk1_apply V c t p j) (blk7_apply V c t q j))) (blk8_apply V c t q z1)

theorem flushed9_eq : (dat2 (F := Ideal) V c).flushed 9 t = ((cfg2.win 9).blk t).view.read (Elt Ideal) (upV V c) := by
  show (cfg2.win 9).cut (grid2.coords t) ((dat2 (F := Ideal) V c).after 9 t) = _
  rw [after2_9, show (outsAt2 (F := Ideal) V c t.val t.isLt).1 = nb V c t from
    if h0 : t.val % 15 = 0 then out9_A V c t h0 else out9_B V c t h0]
  funext j
  obtain ⟨p, q, rfl⟩ : ∃ (p : Fin 10000) (q : Fin 128), j = ix2 p q := ⟨j 0, j 1, eq_ix2 j⟩
  show nb V c t (ix2 p q) = upV V c (((cfg2.win 9).blk t).view.emb (ix2 p q))
  rw [emb9_apply]
  exact up_blk V c t p q

theorem flushed10_eq : (dat2 (F := Ideal) V c).flushed 10 t = ((cfg2.win 10).blk t).view.read (Elt Ideal) (h1V V c) := by
  show (cfg2.win 10).cut (grid2.coords t) ((dat2 (F := Ideal) V c).after 10 t) = _
  rw [after2_10, show (outsAt2 (F := Ideal) V c t.val t.isLt).2.1 = ab V c t from
    if h0 : t.val % 15 = 0 then out10_A V c t h0 else out10_B V c t h0]
  funext j
  obtain ⟨p, q, rfl⟩ : ∃ (p : Fin 10000) (q : Fin 128), j = ix2 p q := ⟨j 0, j 1, eq_ix2 j⟩
  show ab V c t (ix2 p q) = h1V V c (((cfg2.win 10).blk t).view.emb (ix2 p q))
  rw [emb10_apply]
  exact h1_blk V c t p q

/-- Row r lies in the block of point r / 10000: it is an entry of that block. -/
theorem cover9 (i : S150000x128.Idx) :
    ∃ t : Fin cfg2.N, (cfg2.win 9).flush t = true ∧ i ∈ ((cfg2.win 9).blk t).view.set := by
  obtain ⟨t, p, q, rfl⟩ := tile_of i
  refine ⟨t, flush2_9 t, ?_⟩
  rw [← emb9_apply]
  exact View.emb_mem_set _ _
theorem cover10 (i : S150000x128.Idx) :
    ∃ t : Fin cfg2.N, (cfg2.win 10).flush t = true ∧ i ∈ ((cfg2.win 10).blk t).view.set := by
  obtain ⟨t, p, q, rfl⟩ := tile_of i
  refine ⟨t, flush2_10 t, ?_⟩
  rw [← emb10_apply]
  exact View.emb_mem_set _ _

end BigOutputs

section Accumulators
variable (c : Dev nD)

section Step
variable (t : Fin cfg2.N) (u : Fin 1) (q : Fin 128)

/-- At the first point both accumulators start from zero and take the point's tile of column sums, resp. of squares. -/
theorem acc_A (h0 : t.val % 15 = 0) :
    (outsAt2 (F := Ideal) V c t.val t.isLt).2.2.1 (ix2 u q) = 0 + ∑ p : Fin 10000, h1V V c (ix2 (row (pt t) p) q)
    ∧ (outsAt2 (F := Ideal) V c t.val t.isLt).2.2.2 (ix2 u q) = 0 + ∑ p : Fin 10000, h1V V c (ix2 (row (pt t) p) q) * h1V V c (ix2 (row (pt t) p) q) :=
  ⟨(congrFun (out11_A V c t h0) _).trans ((pay2_apply ..).trans
      (congrArg₂ (· + ·) (pay4_apply _) (Finset.sum_congr rfl fun p _ => h1_blk V c t p q))),
    (congrFun (out12_A V c t h0) _).trans ((pay3_apply ..).trans
      (congrArg₂ (· + ·) (pay5_apply _) (Finset.sum_congr rfl fun p _ => congrArg₂ (· * ·) (h1_blk V c t p q) (h1_blk V c t p q))))⟩

/-- At a later point each adds the point's tile to what the point before left. -/
theorem acc_B (h0 : ¬t.val % 15 = 0) :
    (outsAt2 (F := Ideal) V c t.val t.isLt).2.2.1 (ix2 u q) = (outsAt2 (F := Ideal) V c (t.val - 1) (Nat.lt_of_le_of_lt (Nat.sub_le _ _) t.isLt)).2.2.1 (ix2 u q) + ∑ p : Fin 10000, h1V V c (ix2 (row (pt t) p) q)
    ∧ (outsAt2 (F := Ideal) V c t.val t.isLt).2.2.2 (ix2 u q) = (outsAt2 (F := Ideal) V c (t.val - 1) (Nat.lt_of_le_of_lt (Nat.sub_le _ _) t.isLt)).2.2.2 (ix2 u q) + ∑ p : Fin 10000, h1V V c (ix2 (row (pt t) p) q) * h1V V c (ix2 (row (pt t) p) q) :=
  ⟨(congrFun (out11_B V c t h0) _).trans ((pay2_apply ..).trans
      (congrArg₂ (· + ·) rfl (Finset.sum_congr rfl fun p _ => h1_blk V c t p q))),
    (congrFun (out12_B V c t h0) _).trans ((pay3_apply ..).trans
      (congrArg₂ (· + ·) rfl (Finset.sum_congr rfl fun p _ => congrArg₂ (· * ·) (h1_blk V c t p q) (h1_blk V c t p q))))⟩

end Step

/-- After the last of the 15 points the first accumulator holds the column sums over all rows, the second the sums of squares. -/
theorem sum_final : (outsAt2 (F := Ideal) V c t2_14.val t2_14.isLt).2.2.1 = colSum (h1V V c) :=
  Cert.LibAcc.colsum_of_acc rows_tiled (h1V V c) (fun k h => (outsAt2 (F := Ideal) V c k (lt_of_lt_of_eq h N_2.symm)).2.2.1)
    (fun h u q => (acc_A V c ⟨0, lt_of_lt_of_eq h N_2.symm⟩ u q rfl).1)
    (fun k h u q => (acc_B V c ⟨k + 1, lt_of_lt_of_eq h N_2.symm⟩ u q (by dsimp only; omega)).1) 14 (by norm_num) rfl
theorem sumsq_final : (outsAt2 (F := Ideal) V c t2_14.val t2_14.isLt).2.2.2 = colSumSq (h1V V c) :=
  Cert.LibAcc.colsum_of_acc rows_tiled (fun j => h1V V c j * h1V V c j) (fun k h => (outsAt2 (F := Ideal) V c k (lt_of_lt_of_eq h N_2.symm)).2.2.2)
    (fun h u q => (acc_A V c ⟨0, lt_of_lt_of_eq h N_2.symm⟩ u q rfl).2)
    (fun k h u q => (acc_B V c ⟨k + 1, lt_of_lt_of_eq h N_2.symm⟩ u q (by dsimp only; omega)).2) 14 (by norm_num) rfl

/-- The 1×128 block is its whole array: a row read through it is the row itself. -/
theorem back11 (X : S1x128.Idx → EReal) (t : Fin cfg2.N) :
    (cfg2.win 11).cut (grid2.coords t) X = ((cfg2.win 11).blk t).view.read (Elt Ideal) X := by
  funext j
  obtain ⟨u, q, rfl⟩ : ∃ (u : Fin 1) (q : Fin 128), j = ix2 u q := ⟨j 0, j 1, eq_ix2 j⟩
  show X (ix2 u q) = X (((cfg2.win 11).blk t).view.emb (ix2 u q))
  rw [emb11_apply]
theorem back12 (X : S1x128.Idx → EReal) (t : Fin cfg2.N) :
    (cfg2.win 12).cut (grid2.coords t) X = ((cfg2.win 12).blk t).view.read (Elt Ideal) X := by
  funext j
  obtain ⟨u, q, rfl⟩ : ∃ (u : Fin 1) (q : Fin 128), j = ix2 u q := ⟨j 0, j 1, eq_ix2 j⟩
  show X (ix2 u q) = X (((cfg2.win 12).blk t).view.emb (ix2 u q))
  rw [emb12_apply]

theorem flushed11_eq (t : Fin cfg2.N) (hf : (cfg2.win 11).flush t = true) :
    (dat2 (F := Ideal) V c).flushed 11 t = ((cfg2.win 11).blk t).view.read (Elt Ideal) (colSum (h1V V c)) := by
  have hN : cfg2.N = 15 := N_2
  have h14 : t.val = 14 := by have := (flush2_11 t).mp hf; have := t.isLt; omega
  obtain rfl : t = t2_14 := Fin.ext h14
  show (cfg2.win 11).cut (grid2.coords t2_14) ((dat2 (F := Ideal) V c).after 11 t2_14) = _
  rw [after2_11, sum_final]
  exact back11 _ _

theorem flushed12_eq (t : Fin cfg2.N) (hf : (cfg2.win 12).flush t = true) :
    (dat2 (F := Ideal) V c).flushed 12 t = ((cfg2.win 12).blk t).view.read (Elt Ideal) (colSumSq (h1V V c)) := by
  have hN : cfg2.N = 15 := N_2
  have h14 : t.val = 14 := by have := (flush2_12 t).mp hf; have := t.isLt; omega
  obtain rfl : t = t2_14 := Fin.ext h14
  show (cfg2.win 12).cut (grid2.coords t2_14) ((dat2 (F := Ideal) V c).after 12 t2_14) = _
  rw [after2_12, sumsq_final]
  exact back12 _ _

/-- The last point's block is the whole 1×128 array: every index is an entry of it. -/
theorem cover11 (i : S1x128.Idx) :
    ∃ t : Fin cfg2.N, (cfg2.win 11).flush t = true ∧ i ∈ ((cfg2.win 11).blk t).view.set := by
  obtain ⟨u, q, rfl⟩ : ∃ (u : Fin 1) (q : Fin 128), i = ix2 u q := ⟨i 0, i 1, eq_ix2 i⟩
  refine ⟨t2_14, (flush2_11 t2_14).mpr rfl, ?_⟩
  rw [← emb11_apply t2_14]
  exact View.emb_mem_set _ _
theorem cover12 (i : S1x128.Idx) :
    ∃ t : Fin cfg2.N, (cfg2.win 12).flush t = true ∧ i ∈ ((cfg2.win 12).blk t).view.set := by
  obtain ⟨u, q, rfl⟩ : ∃ (u : Fin 1) (q : Fin 128), i = ix2 u q := ⟨i 0, i 1, eq_ix2 i⟩
  refine ⟨t2_14, (flush2_12 t2_14).mpr rfl, ?_⟩
  rw [← emb12_apply t2_14]
  exact View.emb_mem_set _ _

end Accumulators

end R2

open R2

theorem region2_up (c : Dev nD) :
    ((dat2 (F := Ideal) V c).arrAt 9 cfg2.N : S150000x128.Idx → EReal) = upV V c :=
  (dat2 (F := Ideal) V c).arrAt_eq_of_cover 9 (upV V c) (fun t _ => flushed9_eq V c t) cover9
theorem region2_h1 (c : Dev nD) :
    ((dat2 (F := Ideal) V c).arrAt 10 cfg2.N : S150000x128.Idx → EReal) = h1V V c :=
  (dat2 (F := Ideal) V c).arrAt_eq_of_cover 10 (h1V V c) (fun t _ => flushed10_eq V c t) cover10
theorem region2_sum (c : Dev nD) :
    ((dat2 (F := Ideal) V c).arrAt 11 cfg2.N : S1x128.Idx → EReal) = colSum (h1V V c) :=
  (dat2 (F := Ideal) V c).arrAt_eq_of_cover 11 (colSum (h1V V c)) (flushed11_eq V c) cover11
theorem region2_sumsq (c : Dev nD) :
    ((dat2 (F := Ideal) V c).arrAt 12 cfg2.N : S1x128.Idx → EReal) = colSumSq (h1V V c) :=
  (dat2 (F := Ideal) V c).arrAt_eq_of_cover 12 (colSumSq (h1V V c)) (flushed12_eq V c) cover12

end Cert.KernelIdeal.Val

end
-- ==== Proof.KR3.lean ====
import proofs.«425338_j83640193122774_2_alg».proof.Proof.Gen.KernelIdeal.Frame
import proofs.«425338_j83640193122774_2_alg».proof.Proof.KSpec
import proofs.«425338_j83640193122774_2_alg».proof.Proof.LibAcc
import proofs.«425338_j83640193122774_2_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec Cert.LibAcc
open Cert.LibSums (flat)
open Idealize.ShloMosaic.Pipeline (Dat Cfg Window)

variable (V : (c : Dev nD) → (b : Ref sig .tc) → Buf (Elt Ideal) ((c : Thread nD τ).loc b))

abbrev h2V (c : Dev nD) : Mat 150000 128 :=
  mat (aff2 (mat (norm (V c main_v28_1) (V c main_v37) (V c main_v38) (V c main_v39) (V c main_v40))) (V c main_arg11) (V c main_v41))

namespace R3

section Pieces
variable {F : FTy → Type} [FloatOps F] {c : Dev nD} {i : grid3.Coords}
  {a1 a8 : Memref sig .tc .vmem S10000x128 .f32} {a2 a3 a4 a5 a7 a9 a10 : Memref sig .tc .vmem S1x128 .f32}
  {a6 : Memref sig .tc .vmem S128x128 .f32} {h1 : a1.IsWhole} {h2 : a2.IsWhole} {h3 : a3.IsWhole} {h4 : a4.IsWhole}
  {h5 : a5.IsWhole} {h6 : a6.IsWhole} {h7 : a7.IsWhole} {h8 : a8.IsWhole} {h9 : a9.IsWhole} {h10 : a10.IsWhole}
  {x0 : Vec F S10000x128 .f32} {x1 x2 x3 x4 x6 xo8 xo9 : Vec F S1x128 .f32} {x5 : Vec F S128x128 .f32}

theorem hz : (![0, 0] : Fin 2 → Nat) = fun _ => 0 := funext fun a => by fin_cases a <;> rfl

/-- At the first point the body leaves the block value, and in each row zero plus the block's column sums (of squares). -/
theorem out_A {hc : cond3_0 i} :
    (out3_A_7 c i a1 h1 a2 h2 a3 h3 a4 h4 a5 h5 a6 h6 a7 h7 a8 h8 a9 h9 a10 h10 hc x0 x1 x2 x3 x4 x5 x6, out3_A_8 c i a1 h1 a2 h2 a3 h3 a4 h4 a5 h5 a6 h6 a7 h7 a8 h8 a9 h9 a10 h10 hc x0 x1 x2 x3 x4 x5 x6,
      out3_A_9 c i a1 h1 a2 h2 a3 h3 a4 h4 a5 h5 a6 h6 a7 h7 a8 h8 a9 h9 a10 h10 hc x0 x1 x2 x3 x4 x5 x6)
      = (k3_pay5 x0 x1 x2 x3 x4 x5 x6, k3_pay1 (k3_pay5 x0 x1 x2 x3 x4 x5 x6) k3_pay3, k3_pay2 (k3_pay5 x0 x1 x2 x3 x4 x5 x6) k3_pay4) := by
  unfold out3_A_7 out3_A_8 out3_A_9
  rw [View.read_writes_eq_canon _ _ _ (cover3_A_7 c i a1 h1 a2 h2 a3 h3 a4 h4 a5 h5 a6 h6 a7 h7 a8 h8 a9 h9 a10 h10 hc x0 x1 x2 x3 x4 x5 x6),
    View.read_writes_eq_canon _ _ _ (cover3_A_8 c i a1 h1 a2 h2 a3 h3 a4 h4 a5 h5 a6 h6 a7 h7 a8 h8 a9 h9 a10 h10 hc x0 x1 x2 x3 x4 x5 x6),
    View.read_writes_eq_canon _ _ _ (cover3_A_9 c i a1 h1 a2 h2 a3 h3 a4 h4 a5 h5 a6 h6 a7 h7 a8 h8 a9 h9 a10 h10 hc x0 x1 x2 x3 x4 x5 x6)]
  unfold kernelRun3_A
  dsimp only
  sl_unfold_words
  rw [View.canon_unit_zero hz, View.canon_cons_unit_zero (S := S1x128) hz, View.readCov_unit_zero (S := S1x128) _ hz,
    View.canon_cons_unit_zero (S := S1x128) hz, View.readCov_unit_zero (S := S1x128) _ hz]
  simp only [View.readAt_eq_ld, h1.read_unread, h2.read_unread, h3.read_unread, h4.read_unread, h5.read_unread, h6.read_unread,
    h7.read_unread, h9.read_unread, h10.read_unread, View.ld_unit_zero (S := S10000x128) hz, View.ld_unit_zero (S := S1x128) hz,
    View.ld_unit_zero (S := S128x128) hz]

/-- At a later point it leaves the block value, and each row as it was plus the block's column sums (of squares). -/
theorem out_B {hc : ¬cond3_0 i} :
    (out3_B_7 c i a1 h1 a2 h2 a3 h3 a4 h4 a5 h5 a6 h6 a7 h7 a8 h8 a9 h9 a10 h10 hc x0 x1 x2 x3 x4 x5 x6 xo8 xo9, out3_B_8 c i a1 h1 a2 h2 a3 h3 a4 h4 a5 h5 a6 h6 a7 h7 a8 h8 a9 h9 a10 h10 hc x0 x1 x2 x3 x4 x5 x6 xo8 xo9,
      out3_B_9 c i a1 h1 a2 h2 a3 h3 a4 h4 a5 h5 a6 h6 a7 h7 a8 h8 a9 h9 a10 h10 hc x0 x1 x2 x3 x4 x5 x6 xo8 xo9)
      = (k3_pay5 x0 x1 x2 x3 x4 x5 x6, k3_pay1 (k3_pay5 x0 x1 x2 x3 x4 x5 x6) xo8, k3_pay2 (k3_pay5 x0 x1 x2 x3 x4 x5 x6) xo9) := by
  unfold out3_B_7 out3_B_8 out3_B_9
  rw [View.read_writes_eq_canon _ _ _ (cover3_B_7 c i a1 h1 a2 h2 a3 h3 a4 h4 a5 h5 a6 h6 a7 h7 a8 h8 a9 h9 a10 h10 hc x0 x1 x2 x3 x4 x5 x6 xo8 xo9),
    View.read_writes_eq_canon _ _ _ (cover3_B_8 c i a1 h1 a2 h2 a3 h3 a4 h4 a5 h5 a6 h6 a7 h7 a8 h8 a9 h9 a10 h10 hc x0 x1 x2 x3 x4 x5 x6 xo8 xo9),
    View.read_writes_eq_canon _ _ _ (cover3_B_9 c i a1 h1 a2 h2 a3 h3 a4 h4 a5 h5 a6 h6 a7 h7 a8 h8 a9 h9 a10 h10 hc x0 x1 x2 x3 x4 x5 x6 xo8 xo9)]
  unfold kernelRun3_B
  dsimp only
  sl_unfold_words
  rw [View.canon_unit_zero hz, View.canon_unit_zero hz, View.canon_unit_zero hz]
  simp only [View.readAt_eq_ld, h1.read_unread, h2.read_unread, h3.read_unread, h4.read_unread, h5.read_unread, h6.read_unread,
    h7.read_unread, h9.read_unread, h10.read_unread, View.ld_unit_zero (S := S10000x128) hz, View.ld_unit_zero (S := S1x128) hz,
    View.ld_unit_zero (S := S128x128) hz]

end Pieces

section Arith

theorem lift_row (q : Fin 128) (r : Fin 10000) : reduces_S10000x128_S128.lift (ix1 q) r = ix2 r q := by
  funext a; apply Fin.ext
  match a with
  | ⟨0, _⟩ => rfl
  | ⟨1, _⟩ => rfl

theorem row_bcast (v : FVec Ideal S1x128 .f32) (p : Fin 10000) (q : Fin 128) :
    broadcastTo S10000x128 v broadcasts_S1x128_S10000x128 (ix2 p q) = v (ix2 z1 q) :=
  broadcastTo_1b_ab_apply v broadcasts_S1x128_S10000x128 p q

/-- The block value at an entry: the normalised, clipped row through a column of the weight, plus the bias. -/
theorem pay5_apply (x0 : Vec Ideal S10000x128 .f32) (x1 x2 x3 x4 : Vec Ideal S1x128 .f32) (x5 : Vec Ideal S128x128 .f32)
    (x6 : Vec Ideal S1x128 .f32) (p : Fin 10000) (q : Fin 128) :
    (k3_pay5 (F := Ideal) x0 x1 x2 x3 x4 x5 x6 (ix2 p q) : EReal)
      = ∑ j : Fin 128, max ((x0 (ix2 p j) - x1 (ix2 z1 j)) * Ideal.rsqrt (x2 (ix2 z1 j) + eps) * x3 (ix2 z1 j) + x4 (ix2 z1 j)) 0 * x5 (ix2 j q)
        + x6 (ix2 z1 q) := by
  unfold k3_pay5
  refine (addf_apply _ _ (ix2 p q)).trans ?_
  refine congrArg₂ (· + ·) ?_ ?_
  · refine (BlockOps.matmul_zero_apply (m := 10000) (k := 128) (n := 128) dot_S10000x128_S128x128_S10000x128_1_0_0_1_n_n_wf none _ x5 p q).trans ?_
    refine Finset.sum_congr rfl fun j _ => congrArg (· * x5 (ix2 j q)) ?_
    refine (maximumf_apply _ _ (ix2 p j)).trans ?_
    refine congrArg₂ max ?_ Ideal.ofBits_zero_f32
    refine (addf_apply _ _ (ix2 p j)).trans ?_
    refine congrArg₂ (· + ·) ?_ ((row_bcast _ p j).trans (congrFun (shapeCast_self x4 shapeCasts_S1x128_S1x128) (ix2 z1 j)))
    refine (mulf_apply _ _ (ix2 p j)).trans ?_
    refine congrArg₂ (· * ·) ?_ ((row_bcast _ p j).trans (congrFun (shapeCast_self x3 shapeCasts_S1x128_S1x128) (ix2 z1 j)))
    refine (mulf_apply _ _ (ix2 p j)).trans ?_
    refine congrArg₂ (· * ·) ?_ ?_
    · refine (subf_apply _ _ (ix2 p j)).trans ?_
      exact congrArg₂ (· - ·) (congrFun (shapeCast_self x0 shapeCasts_S10000x128_S10000x128) (ix2 p j))
        ((row_bcast _ p j).trans (congrFun (shapeCast_self x1 shapeCasts_S1x128_S1x128) (ix2 z1 j)))
    · refine (row_bcast _ p j).trans ?_
      show Ideal.rsqrt (shapeCast S1x128 x2 shapeCasts_S1x128_S1x128 (ix2 z1 j) + eps) = _
      exact congrArg (fun y => Ideal.rsqrt (y + eps)) (congrFun (shapeCast_self x2 shapeCasts_S1x128_S1x128) (ix2 z1 j))
  · exact (row_bcast _ p q).trans (congrFun (shapeCast_self x6 shapeCasts_S1x128_S1x128) (ix2 z1 q))

/-- A row plus the column sums of a block, at an entry. -/
theorem pay1_apply (v : FVec Ideal S10000x128 .f32) (a : Vec Ideal S1x128 .f32) (u : Fin 1) (q : Fin 128) :
    (k3_pay1 (F := Ideal) v a (ix2 u q) : EReal) = a (ix2 u q) + ∑ r : Fin 10000, v (ix2 r q) := by
  unfold k3_pay1
  refine (addf_apply _ _ (ix2 u q)).trans ?_
  refine congrArg₂ (· + ·) (congrFun (shapeCast_self a shapeCasts_S1x128_S1x128) (ix2 u q)) ?_
  refine (shapeCast_a_1a_apply _ shapeCasts_S128_S1x128 u q).trans ?_
  refine (Ideal.multiReduction_add_single v _ reduces_S10000x128_S128 _ _ (ix1 q)).trans ?_
  exact Finset.sum_congr rfl fun r _ => congrArg v (lift_row q r)

theorem pay3_apply (i : S1x128.Idx) : (k3_pay3 (F := Ideal) i : EReal) = 0 := Ideal.ofBits_zero_f32

end Arith

section Value

abbrev xb0 (c : Dev nD) (t : Fin cfg3.N) : Vec Ideal S10000x128 .f32 := iblk3 V c 0 t
abbrev xb1 (c : Dev nD) (t : Fin cfg3.N) : Vec Ideal S1x128 .f32 := iblk3 V c 1 t
abbrev xb2 (c : Dev nD) (t : Fin cfg3.N) : Vec Ideal S1x128 .f32 := iblk3 V c 2 t
abbrev xb3 (c : Dev nD) (t : Fin cfg3.N) : Vec Ideal S1x128 .f32 := iblk3 V c 3 t
abbrev xb4 (c : Dev nD) (t : Fin cfg3.N) : Vec Ideal S1x128 .f32 := iblk3 V c 4 t
abbrev xb5 (c : Dev nD) (t : Fin cfg3.N) : Vec Ideal S128x128 .f32 := iblk3 V c 5 t
abbrev xb6 (c : Dev nD) (t : Fin cfg3.N) : Vec Ideal S1x128 .f32 := iblk3 V c 6 t
/-- The block value the body computes at a point. -/
abbrev blkV (c : Dev nD) (t : Fin cfg3.N) : FVec Ideal S10000x128 .f32 := k3_pay5 (xb0 V c t) (xb1 V c t) (xb2 V c t) (xb3 V c t) (xb4 V c t) (xb5 V c t) (xb6 V c t)

theorem N3 : cfg3.N = 15 := N_3
theorem lt15 (t : Fin cfg3.N) : t.val < 15 := lt_of_lt_of_eq t.isLt N3
theorem pred_lt (t : Fin cfg3.N) : t.val - 1 < cfg3.N := Nat.lt_of_le_of_lt (Nat.sub_le _ _) t.isLt
theorem ne0 (n : ℕ) (h : n + 1 < cfg3.N) : ¬(n + 1) % 15 = 0 := by have := lt_of_lt_of_eq h N3; omega
theorem last_pt (t : Fin cfg3.N) (h : t.val % 15 = 14) : t.val + 1 = cfg3.N := by have := lt15 t; have := N3; omega
theorem hN3 : 150000 = cfg3.N * 10000 := by rw [N3]

/-- Row p of the block at point t is row t·10000 + p of the array. -/
abbrev blkRow (t : Fin cfg3.N) (p : Fin 10000) : Fin 150000 := flat hN3 t p

theorem idx0 : ∀ (t : Fin cfg3.N) (a : Fin 2), win3_1.index t a = 0 ∧ win3_2.index t a = 0 ∧ win3_3.index t a = 0
    ∧ win3_4.index t a = 0 ∧ win3_5.index t a = 0 ∧ win3_6.index t a = 0 ∧ win3_8.index t a = 0 ∧ win3_9.index t a = 0 :=
  (by decide +kernel : ∀ (t : Fin grid3.N) (a : Fin 2), _)
theorem idxT : ∀ t : Fin cfg3.N, (win3_0.index t (0 : Fin 2) = t.val ∧ win3_0.index t (1 : Fin 2) = 0)
    ∧ win3_7.index t (0 : Fin 2) = t.val ∧ win3_7.index t (1 : Fin 2) = 0 :=
  (by decide +kernel : ∀ t : Fin grid3.N, _)

theorem blk0_apply (c : Dev nD) (t : Fin cfg3.N) (p : Fin 10000) (q : Fin 128) :
    xb0 V c t (ix2 p q) = V c main_v28_1 (ix2 (blkRow t p) q) := by
  show V c main_v28_1 (((cfg3.win 0).blk t).view.emb (ix2 p q)) = V c main_v28_1 (ix2 (blkRow t p) q)
  refine congrArg (V c main_v28_1) ?_
  funext a; apply Fin.ext
  match a with
  | ⟨0, _⟩ => show win3_0.index t (0 : Fin 2) * 10000 + 1 * p.val = t.val * 10000 + p.val; rw [(idxT t).1.1]; omega
  | ⟨1, _⟩ => show win3_0.index t (1 : Fin 2) * 128 + 1 * q.val = q.val; rw [(idxT t).1.2]; omega

/-- Each small input's block is its whole array. -/
theorem blk1 (c : Dev nD) (t : Fin cfg3.N) : xb1 V c t = V c main_v37 := read_blk0 _ main_v37 (fun a => (idx0 t a).1) _ _
theorem blk2 (c : Dev nD) (t : Fin cfg3.N) : xb2 V c t = V c main_v38 := read_blk0 _ main_v38 (fun a => (idx0 t a).2.1) _ _
theorem blk3 (c : Dev nD) (t : Fin cfg3.N) : xb3 V c t = V c main_v39 := read_blk0 _ main_v39 (fun a => (idx0 t a).2.2.1) _ _
theorem blk4 (c : Dev nD) (t : Fin cfg3.N) : xb4 V c t = V c main_v40 := read_blk0 _ main_v40 (fun a => (idx0 t a).2.2.2.1) _ _
theorem blk5 (c : Dev nD) (t : Fin cfg3.N) : xb5 V c t = V c main_arg11 := read_blk0 _ main_arg11 (fun a => (idx0 t a).2.2.2.2.1) _ _
theorem blk6 (c : Dev nD) (t : Fin cfg3.N) : xb6 V c t = V c main_v41 := read_blk0 _ main_v41 (fun a => (idx0 t a).2.2.2.2.2.1) _ _

/-- The block at point t is block t of the second hidden array: the small inputs are whole arrays, the big one its block t. -/
theorem h2blk_apply (c : Dev nD) (t : Fin cfg3.N) (p : Fin 10000) (q : Fin 128) :
    (blkV V c t (ix2 p q) : EReal) = h2V V c (ix2 (blkRow t p) q) := by
  show k3_pay5 (xb0 V c t) (xb1 V c t) (xb2 V c t) (xb3 V c t) (xb4 V c t) (xb5 V c t) (xb6 V c t) (ix2 p q) = _
  rw [blk1, blk2, blk3, blk4, blk5, blk6, pay5_apply]
  show _ = aff2 _ (V c main_arg11) (V c main_v41) (blkRow t p) q
  unfold aff2
  exact congrArg₂ (· + ·) (Finset.sum_congr rfl fun j _ => by rw [blk0_apply]; rfl) rfl

theorem outs_A (c : Dev nD) (t : Fin cfg3.N) (h0 : t.val % 15 = 0) : outsAt3 (F := Ideal) V c t.val t.isLt
    = (blkV V c t, k3_pay1 (blkV V c t) (k3_pay3 (F := Ideal)), k3_pay2 (blkV V c t) (k3_pay4 (F := Ideal))) :=
  (outsAt3_A V c t h0).trans out_A
theorem outs_B (c : Dev nD) (t : Fin cfg3.N) (h0 : ¬t.val % 15 = 0) : outsAt3 (F := Ideal) V c t.val t.isLt
    = (blkV V c t, k3_pay1 (blkV V c t) (outsAt3 (F := Ideal) V c (t.val - 1) (pred_lt t)).2.1,
      k3_pay2 (blkV V c t) (outsAt3 (F := Ideal) V c (t.val - 1) (pred_lt t)).2.2) := (outsAt3_B V c t h0).trans out_B

theorem outs7 (c : Dev nD) (t : Fin cfg3.N) : (outsAt3 (F := Ideal) V c t.val t.isLt).1 = blkV V c t := by
  by_cases h0 : t.val % 15 = 0
  · rw [outs_A V c t h0]
  · rw [outs_B V c t h0]

/-- Point t's block of the big output is block t of the second hidden array. -/
theorem flushed7 (c : Dev nD) (t : Fin cfg3.N) :
    (dat3 (F := Ideal) V c).flushed 7 t = ((cfg3.win 7).blk t).view.read (Elt Ideal) (h2V V c) := by
  show (cfg3.win 7).cut (grid3.coords t) ((dat3 (F := Ideal) V c).after 7 t) = _
  rw [after3_7, outs7]
  funext y
  obtain ⟨p, q, rfl⟩ : ∃ (p : Fin 10000) (q : Fin 128), y = ix2 p q := ⟨y 0, y 1, eq_ix2 y⟩
  show (blkV V c t (ix2 p q) : EReal) = h2V V c (((cfg3.win 7).blk t).view.emb (ix2 p q))
  refine (h2blk_apply V c t p q).trans (congrArg (h2V V c) ?_)
  funext a; apply Fin.ext
  match a with
  | ⟨0, _⟩ => show t.val * 10000 + p.val = win3_7.index t (0 : Fin 2) * 10000 + 1 * p.val; rw [(idxT t).2.1]; omega
  | ⟨1, _⟩ => show q.val = win3_7.index t (1 : Fin 2) * 128 + 1 * q.val; rw [(idxT t).2.2]; omega

theorem mem_blk7 (t : Fin cfg3.N) (i : S150000x128.Idx) :
    i ∈ ((cfg3.win 7).blk t).view.set ↔ ∀ a : Fin 2, win3_7.index t a * S10000x128.size a ≤ (i a).val ∧ (i a).val < win3_7.index t a * S10000x128.size a + S10000x128.size a := by
  show i ∈ ((View.whole main_v42_0).slice (win3_7.rect t)).set ↔ _
  rw [View.set_slice_whole, Rect.mem_set_unit]
  exact Iff.rfl
theorem cover7 (i : S150000x128.Idx) :
    ∃ t : Fin cfg3.N, (cfg3.win 7).flush t = true ∧ i ∈ ((cfg3.win 7).blk t).view.set := by
  have hi0 : (i 0).val < 150000 := (i 0).isLt
  have hi1 : (i 1).val < 128 := (i 1).isLt
  obtain ⟨t, ht⟩ : ∃ t : Fin cfg3.N, t.val = (i 0).val / 10000 :=
    ⟨⟨(i 0).val / 10000, by rw [show cfg3.N = 15 from N_3]; omega⟩, rfl⟩
  refine ⟨t, flush3_7 t, ?_⟩
  rw [mem_blk7]
  have e := (idxT t).2
  intro a
  match a with
  | ⟨0, _⟩ => show win3_7.index t (0 : Fin 2) * 10000 ≤ (i 0).val ∧ (i 0).val < win3_7.index t (0 : Fin 2) * 10000 + 10000; rw [e.1]; omega
  | ⟨1, _⟩ => show win3_7.index t (1 : Fin 2) * 128 ≤ (i 1).val ∧ (i 1).val < win3_7.index t (1 : Fin 2) * 128 + 128; rw [e.2]; omega

/-- A row that starts at the first block's column sums and gains each later block's ends at the whole array's column sums. -/
theorem stat_last (H : Mat 150000 128) (Bk : (n : ℕ) → n < cfg3.N → FVec Ideal S10000x128 .f32)
    (A : (n : ℕ) → n < cfg3.N → Vec Ideal S1x128 .f32)
    (hB : ∀ n h p q, Bk n h (ix2 p q) = H (ix2 (blkRow ⟨n, h⟩ p) q))
    (h0 : ∀ h, A 0 h = k3_pay1 (Bk 0 h) (k3_pay3 (F := Ideal)))
    (hs : ∀ n h, A (n + 1) h = k3_pay1 (Bk (n + 1) h) (A n (Nat.lt_of_succ_lt h)))
    (t : Fin cfg3.N) (ht : t.val + 1 = cfg3.N) : A t.val t.isLt = colSum H :=
  colsum_of_acc hN3 H A
    (fun h u q => (congrFun (h0 h) _).trans ((pay1_apply _ _ u q).trans
      (congrArg₂ (· + ·) (pay3_apply _) (Finset.sum_congr rfl fun r _ => hB 0 h r q))))
    (fun n h u q => (congrFun (hs n h) _).trans ((pay1_apply _ _ u q).trans
      (congrArg₂ (· + ·) rfl (Finset.sum_congr rfl fun r _ => hB (n + 1) h r q))))
    t.val t.isLt ht

theorem stat8 (c : Dev nD) (t : Fin cfg3.N) (ht : t.val + 1 = cfg3.N) :
    (outsAt3 (F := Ideal) V c t.val t.isLt).2.1 = colSum (h2V V c) :=
  stat_last (h2V V c) (fun n h => blkV V c ⟨n, h⟩) (fun n h => (outsAt3 (F := Ideal) V c n h).2.1)
    (fun n h => h2blk_apply V c ⟨n, h⟩) (fun h => congrArg (·.2.1) (outs_A V c ⟨0, h⟩ rfl))
    (fun n h => congrArg (·.2.1) (outs_B V c ⟨n + 1, h⟩ (ne0 n h))) t ht

/-- The sum of squares is the sum of the entrywise squared block: the same accumulation over the squared array. -/
theorem stat9 (c : Dev nD) (t : Fin cfg3.N) (ht : t.val + 1 = cfg3.N) :
    (outsAt3 (F := Ideal) V c t.val t.isLt).2.2 = colSumSq (h2V V c) :=
  stat_last (fun j => h2V V c j * h2V V c j) (fun n h => mulf (blkV V c ⟨n, h⟩) (blkV V c ⟨n, h⟩))
    (fun n h => (outsAt3 (F := Ideal) V c n h).2.2)
    (fun n h p q => (mulf_apply _ _ _).trans (congrArg₂ (· * ·) (h2blk_apply V c ⟨n, h⟩ p q) (h2blk_apply V c ⟨n, h⟩ p q)))
    (fun h => congrArg (·.2.2) (outs_A V c ⟨0, h⟩ rfl)) (fun n h => congrArg (·.2.2) (outs_B V c ⟨n + 1, h⟩ (ne0 n h))) t ht

/-- At the last point each statistics row is the whole array's column sums (of squares). -/
theorem flushed8 (c : Dev nD) (t : Fin cfg3.N) (hf : (cfg3.win 8).flush t = true) :
    (dat3 (F := Ideal) V c).flushed 8 t = ((cfg3.win 8).blk t).view.read (Elt Ideal) (colSum (h2V V c)) := by
  show (cfg3.win 8).cut (grid3.coords t) ((dat3 (F := Ideal) V c).after 8 t) = _
  rw [after3_8, stat8 V c t (last_pt t ((flush3_8 t).mp hf))]
  exact (read_blk0 _ main_v42_1 (fun a => (idx0 t a).2.2.2.2.2.2.1) _ _).symm
theorem flushed9 (c : Dev nD) (t : Fin cfg3.N) (hf : (cfg3.win 9).flush t = true) :
    (dat3 (F := Ideal) V c).flushed 9 t = ((cfg3.win 9).blk t).view.read (Elt Ideal) (colSumSq (h2V V c)) := by
  show (cfg3.win 9).cut (grid3.coords t) ((dat3 (F := Ideal) V c).after 9 t) = _
  rw [after3_9, stat9 V c t (last_pt t ((flush3_9 t).mp hf))]
  exact (read_blk0 _ main_v42_2 (fun a => (idx0 t a).2.2.2.2.2.2.2) _ _).symm

/-- The last point's block is each whole 1×128 statistics array. -/
theorem cover8 (i : S1x128.Idx) : ∃ t : Fin cfg3.N, (cfg3.win 8).flush t = true ∧ i ∈ ((cfg3.win 8).blk t).view.set :=
  ⟨t3_14, (flush3_8 t3_14).mpr rfl, by
    show i ∈ ((View.whole main_v42_1).slice (win3_8.rect t3_14)).set
    rw [View.set_slice_whole]
    exact mem_unit_of_zero (by decide +kernel) (by decide +kernel) i⟩
theorem cover9 (i : S1x128.Idx) : ∃ t : Fin cfg3.N, (cfg3.win 9).flush t = true ∧ i ∈ ((cfg3.win 9).blk t).view.set :=
  ⟨t3_14, (flush3_9 t3_14).mpr rfl, by
    show i ∈ ((View.whole main_v42_2).slice (win3_9.rect t3_14)).set
    rw [View.set_slice_whole]
    exact mem_unit_of_zero (by decide +kernel) (by decide +kernel) i⟩

end Value

end R3

open R3

theorem region3_h2 (c : Dev nD) :
    ((dat3 (F := Ideal) V c).arrAt 7 cfg3.N : S150000x128.Idx → EReal) = h2V V c :=
  (dat3 (F := Ideal) V c).arrAt_eq_of_cover 7 (h2V V c) (fun t _ => flushed7 V c t) cover7
theorem region3_sum (c : Dev nD) :
    ((dat3 (F := Ideal) V c).arrAt 8 cfg3.N : S1x128.Idx → EReal) = colSum (h2V V c) :=
  (dat3 (F := Ideal) V c).arrAt_eq_of_cover 8 (colSum (h2V V c)) (flushed8 V c) cover8
theorem region3_sumsq (c : Dev nD) :
    ((dat3 (F := Ideal) V c).arrAt 9 cfg3.N : S1x128.Idx → EReal) = colSumSq (h2V V c) :=
  (dat3 (F := Ideal) V c).arrAt_eq_of_cover 9 (colSumSq (h2V V c)) (flushed9 V c) cover9

end Cert.KernelIdeal.Val

end
-- ==== Proof.KR4.lean ====
import proofs.«425338_j83640193122774_2_alg».proof.Proof.Gen.KernelIdeal.Frame
import proofs.«425338_j83640193122774_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec
open Idealize.ShloMosaic.Pipeline (Dat Cfg Window)

variable (V : (c : Dev nD) → (b : Ref sig .tc) → Buf (Elt Ideal) ((c : Thread nD τ).loc b))

namespace R4

-- Pointwise operations are read entry by entry; each statistics row is read at its one row.
theorem pay4_apply (x0 : Vec Ideal S10000x128 .f32) (x1 x2 x3 x4 : Vec Ideal S1x128 .f32) (x5 : Vec Ideal S10000x128 .f32)
    (p : Fin 10000) (q : Fin 128) :
    (k4_pay1 (F := Ideal) x0 x1 x2 x3 x4 x5 : S10000x128.Idx → EReal) (ix2 p q)
      = max ((x0 (ix2 p q) - x1 (ix2 z1 q)) * Ideal.rsqrt (x2 (ix2 z1 q) + eps) * x3 (ix2 z1 q) + x4 (ix2 z1 q)) 0 + x5 (ix2 p q) := by
  unfold k4_pay1
  simp only [shapeCast_self, addf_apply, maximumf_apply, mulf_apply, subf_apply, broadcast_apply, broadcastTo_1b_ab_apply]
  show max ((x0 (ix2 p q) - x1 (ix2 z1 q)) * Ideal.rsqrt (x2 (ix2 z1 q) + eps) * x3 (ix2 z1 q) + x4 (ix2 z1 q)) (Ideal.ofBits .f32 0x00000000#32) + x5 (ix2 p q) = _
  rw [Ideal.ofBits_zero_f32]

def stage4 (c : Dev nD) : Mat 150000 128 := fun i =>
  norm (V c main_v42_0) (V c main_v51) (V c main_v52) (V c main_v53) (V c main_v54) (i 0) (i 1) + (V c main_v28_0 : S150000x128.Idx → EReal) i

theorem hz4 : (![0, 0] : Fin 2 → Nat) = fun _ => 0 := funext fun a => by fin_cases a <;> rfl

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

-- Used for every block read below: an index is the one its two coordinates name.
theorem read2 {A B : Nat} {α : Type} (X : (⟨2, ![A, B]⟩ : Shape).Idx → α) (i : (⟨2, ![A, B]⟩ : Shape).Idx) (r : Fin A) (q : Fin B)
    (h0 : (i 0).val = r.val) (h1 : (i 1).val = q.val) : X i = X (ix2 r q) :=
  congrArg X (funext fun a => Fin.ext (match a with | ⟨0, _⟩ => h0 | ⟨1, _⟩ => h1))

-- On each axis an entry's place is (block index) · (block size) + (its coordinate in the block).
theorem iblk4_0_apply (c : Dev nD) (t : Fin cfg4.N) (p : Fin 10000) (q : Fin 128) (r : Fin 150000)
    (hr : r.val = t.val * 10000 + p.val) :
    (iblk4 V c 0 t : Vec Ideal S10000x128 .f32) (ix2 p q) = (V c main_v42_0 : S150000x128.Idx → EReal) (ix2 r q) := by
  have := idx_facts4 t
  exact read2 (V c main_v42_0 : S150000x128.Idx → EReal) _ r q (by show win4_0.index t (0 : Fin 2) * 10000 + 1 * p.val = r.val; omega)
    (by show win4_0.index t (1 : Fin 2) * 128 + 1 * q.val = q.val; omega)

theorem iblk4_5_apply (c : Dev nD) (t : Fin cfg4.N) (p : Fin 10000) (q : Fin 128) (r : Fin 150000)
    (hr : r.val = t.val * 10000 + p.val) :
    (iblk4 V c 5 t : Vec Ideal S10000x128 .f32) (ix2 p q) = (V c main_v28_0 : S150000x128.Idx → EReal) (ix2 r q) := by
  have := idx_facts4 t
  exact read2 (V c main_v28_0 : S150000x128.Idx → EReal) _ r q (by show win4_5.index t (0 : Fin 2) * 10000 + 1 * p.val = r.val; omega)
    (by show win4_5.index t (1 : Fin 2) * 128 + 1 * q.val = q.val; omega)

theorem iblk4_1_apply (c : Dev nD) (t : Fin cfg4.N) (q : Fin 128) :
    (iblk4 V c 1 t : Vec Ideal S1x128 .f32) (ix2 z1 q) = (V c main_v51 : S1x128.Idx → EReal) (ix2 z1 q) := by
  have := idx_facts4 t
  exact read2 (V c main_v51 : S1x128.Idx → EReal) _ z1 q (by show win4_1.index t (0 : Fin 2) * 1 + 1 * 0 = 0; omega)
    (by show win4_1.index t (1 : Fin 2) * 128 + 1 * q.val = q.val; omega)

theorem iblk4_2_apply (c : Dev nD) (t : Fin cfg4.N) (q : Fin 128) :
    (iblk4 V c 2 t : Vec Ideal S1x128 .f32) (ix2 z1 q) = (V c main_v52 : S1x128.Idx → EReal) (ix2 z1 q) := by
  have := idx_facts4 t
  exact read2 (V c main_v52 : S1x128.Idx → EReal) _ z1 q (by show win4_2.index t (0 : Fin 2) * 1 + 1 * 0 = 0; omega)
    (by show win4_2.index t (1 : Fin 2) * 128 + 1 * q.val = q.val; omega)

theorem iblk4_3_apply (c : Dev nD) (t : Fin cfg4.N) (q : Fin 128) :
    (iblk4 V c 3 t : Vec Ideal S1x128 .f32) (ix2 z1 q) = (V c main_v53 : S1x128.Idx → EReal) (ix2 z1 q) := by
  have := idx_facts4 t
  exact read2 (V c main_v53 : S1x128.Idx → EReal) _ z1 q (by show win4_3.index t (0 : Fin 2) * 1 + 1 * 0 = 0; omega)
    (by show win4_3.index t (1 : Fin 2) * 128 + 1 * q.val = q.val; omega)

theorem iblk4_4_apply (c : Dev nD) (t : Fin cfg4.N) (q : Fin 128) :
    (iblk4 V c 4 t : Vec Ideal S1x128 .f32) (ix2 z1 q) = (V c main_v54 : S1x128.Idx → EReal) (ix2 z1 q) := by
  have := idx_facts4 t
  exact read2 (V c main_v54 : S1x128.Idx → EReal) _ z1 q (by show win4_4.index t (0 : Fin 2) * 1 + 1 * 0 = 0; omega)
    (by show win4_4.index t (1 : Fin 2) * 128 + 1 * q.val = q.val; omega)

-- Each entry of the stored block reads its inputs' blocks at the place the output block gives the entry.
theorem flushed4_eq (c : Dev nD) (t : Fin cfg4.N) :
    (dat4 (F := Ideal) V c).flushed 6 t = ((cfg4.win 6).blk t).view.read (Elt Ideal) (stage4 V c) := by
  show (cfg4.win 6).cut (grid4.coords t) ((dat4 V c).after 6 t) = _
  rw [after4_6]
  unfold out4_6
  rw [View.canon_unit_zero hz4]
  simp only [View.ld_unit_zero (S := S10000x128) hz4, View.ld_unit_zero (S := S1x128) hz4]
  funext j
  obtain ⟨p, q, rfl⟩ : ∃ (p : Fin 10000) (q : Fin 128), j = (ix2 p q : S10000x128.Idx) := ⟨j 0, j 1, eq_ix2 j⟩
  have hN : cfg4.N = 15 := N_4
  have hr : t.val * 10000 + p.val < 150000 := by have := t.isLt; have := p.isLt; omega
  obtain ⟨-, -, -, -, -, -, -, -, -, -, -, -, e0, e1⟩ := idx_facts4 t
  have he : ((cfg4.win 6).blk t).view.emb (ix2 p q : S10000x128.Idx) = (ix2 (⟨t.val * 10000 + p.val, hr⟩ : Fin 150000) q : S150000x128.Idx) := by
    funext a; apply Fin.ext
    match a with
    | ⟨0, _⟩ => show win4_6.index t (0 : Fin 2) * 10000 + 1 * p.val = t.val * 10000 + p.val; omega
    | ⟨1, _⟩ => show win4_6.index t (1 : Fin 2) * 128 + 1 * q.val = q.val; omega
  show (k4_pay1 (F := Ideal) (iblk4 V c 0 t) (iblk4 V c 1 t) (iblk4 V c 2 t) (iblk4 V c 3 t) (iblk4 V c 4 t) (iblk4 V c 5 t) : S10000x128.Idx → EReal) (ix2 p q)
    = stage4 V c (((cfg4.win 6).blk t).view.emb (ix2 p q : S10000x128.Idx))
  refine (pay4_apply _ _ _ _ _ _ p q).trans ?_
  rw [he, iblk4_0_apply V c t p q ⟨_, hr⟩ rfl, iblk4_5_apply V c t p q ⟨_, hr⟩ rfl, iblk4_1_apply, iblk4_2_apply, iblk4_3_apply, iblk4_4_apply]
  rfl

-- The point r / 10000 holds row r.
theorem cover4 (i : S150000x128.Idx) :
    ∃ t : Fin cfg4.N, (cfg4.win 6).flush t = true ∧ i ∈ ((cfg4.win 6).blk t).view.set := by
  have hN : cfg4.N = 15 := N_4
  have hi0 : (i 0).val < 150000 := (i 0).isLt
  have hi1 : (i 1).val < 128 := (i 1).isLt
  obtain ⟨T, hT⟩ : ∃ T : Fin cfg4.N, T.val = (i 0).val / 10000 := ⟨⟨(i 0).val / 10000, by omega⟩, rfl⟩
  refine ⟨T, flush4_6 T, ?_⟩
  show i ∈ ((View.whole main_v55).slice (win4_6.rect T)).set
  rw [View.set_slice_whole, Rect.mem_set_unit]
  obtain ⟨-, -, -, -, -, -, -, -, -, -, -, -, e0, e1⟩ := idx_facts4 T
  intro a
  match a with
  | ⟨0, _⟩ =>
    show win4_6.index T (0 : Fin 2) * 10000 ≤ (i 0).val ∧ (i 0).val < win4_6.index T (0 : Fin 2) * 10000 + 10000
    omega
  | ⟨1, _⟩ =>
    show win4_6.index T (1 : Fin 2) * 128 ≤ (i 1).val ∧ (i 1).val < win4_6.index T (1 : Fin 2) * 128 + 128
    omega

end R4

open R4

theorem region4_out (c : Dev nD) :
    ((dat4 (F := Ideal) V c).arrAt 6 cfg4.N : S150000x128.Idx → EReal)
      = fun i => norm (V c main_v42_0) (V c main_v51) (V c main_v52) (V c main_v53) (V c main_v54) (i 0) (i 1) + (V c main_v28_0 : S150000x128.Idx → EReal) i :=
  (dat4 (F := Ideal) V c).arrAt_eq_of_cover 6 (stage4 V c) (fun t _ => flushed4_eq V c t) cover4

end Cert.KernelIdeal.Val

end
-- ==== Proof.KChainB.lean ====
import proofs.«425338_j83640193122774_2_alg».proof.Proof.Gen.KernelIdeal.Frame
import proofs.«425338_j83640193122774_2_alg».proof.Proof.KSpec
import proofs.«425338_j83640193122774_2_alg».proof.Proof.KChainA
import proofs.«425338_j83640193122774_2_alg».proof.Proof.KR2
import proofs.«425338_j83640193122774_2_alg».proof.Proof.KR3
import proofs.«425338_j83640193122774_2_alg».proof.Proof.KR4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.Spec Cert.KSpec
open Idealize.ShloMosaic.Pipeline (Dat Cfg Window)

namespace ChainB

variable (x : Mat 40000 128) (skip : Mat 150000 128) (pin pout : IMat 8 150000) (Wup : Ten 8 128 128)
  (g0 b0 : Row 128) (W1 : Mat 256 128) (b1 g1 be1 : Row 128) (W2 : Mat 128 128) (b2 g2 be2 : Row 128)

theorem up_stage :
    mat (norm (convM x pin pout Wup) (muRow (colSum (convM x pin pout Wup)))
        (vaRow (colSum (convM x pin pout Wup)) (colSumSq (convM x pin pout Wup))) (rowOf g0) (rowOf b0))
      = up varOnePass x pin pout Wup g0 b0 := rfl

theorem h1_stage :
    mat (aff1 (up varOnePass x pin pout Wup g0 b0) skip (topHalf W1) (botHalf W1) (rowOf b1))
      = h1 varOnePass x skip pin pout Wup g0 b0 W1 b1 := rfl

theorem h2_stage :
    mat (aff2 (mat (norm (h1 varOnePass x skip pin pout Wup g0 b0 W1 b1)
        (muRow (colSum (h1 varOnePass x skip pin pout Wup g0 b0 W1 b1)))
        (vaRow (colSum (h1 varOnePass x skip pin pout Wup g0 b0 W1 b1)) (colSumSq (h1 varOnePass x skip pin pout Wup g0 b0 W1 b1)))
        (rowOf g1) (rowOf be1))) W2 (rowOf b2))
      = h2 varOnePass x skip pin pout Wup g0 b0 W1 b1 g1 be1 W2 b2 := rfl

theorem out_stage :
    (fun i : S150000x128.Idx =>
        norm (h2 varOnePass x skip pin pout Wup g0 b0 W1 b1 g1 be1 W2 b2)
          (muRow (colSum (h2 varOnePass x skip pin pout Wup g0 b0 W1 b1 g1 be1 W2 b2)))
          (vaRow (colSum (h2 varOnePass x skip pin pout Wup g0 b0 W1 b1 g1 be1 W2 b2)) (colSumSq (h2 varOnePass x skip pin pout Wup g0 b0 W1 b1 g1 be1 W2 b2)))
          (rowOf g2) (rowOf be2) (i 0) (i 1)
        + up varOnePass x pin pout Wup g0 b0 i)
      = out varOnePass x skip pin pout Wup g0 b0 W1 b1 g1 be1 W2 b2 g2 be2 := rfl

variable (V : (c : Dev nD) → (b : Ref sig .tc) → Buf (Elt Ideal) ((c : Thread nD τ).loc b))

theorem upV_of (c : Dev nD) {h : Mat 150000 128} {mu va g b : Mat 1 128}
    (e1 : (V c main_v11 : S150000x128.Idx → EReal) = h) (e2 : (V c main_v23 : S1x128.Idx → EReal) = mu)
    (e3 : (V c main_v24 : S1x128.Idx → EReal) = va) (e4 : (V c main_v25 : S1x128.Idx → EReal) = g)
    (e5 : (V c main_v26 : S1x128.Idx → EReal) = b) :
    upV V c = mat (norm h mu va g b) := by
  subst e1 e2 e3 e4 e5; rfl

theorem h1V_of (c : Dev nD) {u s : Mat 150000 128} {Wa Wb : Mat 128 128} {b1 : Mat 1 128}
    (e0 : upV V c = u) (e1 : (V c main_arg1 : S150000x128.Idx → EReal) = s)
    (e2 : (V c main_v21 : S128x128.Idx → EReal) = Wa) (e3 : (V c main_v22 : S128x128.Idx → EReal) = Wb)
    (e4 : (V c main_v27 : S1x128.Idx → EReal) = b1) :
    h1V V c = mat (aff1 u s Wa Wb b1) := by
  subst e0 e1 e2 e3 e4; rfl

theorem h2V_of (c : Dev nD) {h : Mat 150000 128} {mu va g b : Mat 1 128} {W : Mat 128 128} {b2 : Mat 1 128}
    (e1 : (V c main_v28_1 : S150000x128.Idx → EReal) = h) (e2 : (V c main_v37 : S1x128.Idx → EReal) = mu)
    (e3 : (V c main_v38 : S1x128.Idx → EReal) = va) (e4 : (V c main_v39 : S1x128.Idx → EReal) = g)
    (e5 : (V c main_v40 : S1x128.Idx → EReal) = b) (e6 : (V c main_arg11 : S128x128.Idx → EReal) = W)
    (e7 : (V c main_v41 : S1x128.Idx → EReal) = b2) :
    h2V V c = mat (aff2 (mat (norm h mu va g b)) W b2) := by
  subst e1 e2 e3 e4 e5 e6 e7; rfl

theorem outV_of (c : Dev nD) {h u : Mat 150000 128} {mu va g b : Mat 1 128}
    (e1 : (V c main_v42_0 : S150000x128.Idx → EReal) = h) (e2 : (V c main_v51 : S1x128.Idx → EReal) = mu)
    (e3 : (V c main_v52 : S1x128.Idx → EReal) = va) (e4 : (V c main_v53 : S1x128.Idx → EReal) = g)
    (e5 : (V c main_v54 : S1x128.Idx → EReal) = b) (e6 : (V c main_v28_0 : S150000x128.Idx → EReal) = u) :
    (fun i : S150000x128.Idx => norm (V c main_v42_0) (V c main_v51) (V c main_v52) (V c main_v53) (V c main_v54) (i 0) (i 1)
        + (V c main_v28_0 : S150000x128.Idx → EReal) i)
      = fun i => norm h mu va g b (i 0) (i 1) + u i := by
  subst e1 e2 e3 e4 e5 e6; rfl

end ChainB

variable (m : (ℓ : Loc nD τ sig) → Buf (Elt Ideal) ℓ) (ρ : Dev nD → PrngReg)

abbrev chUp (c : Dev nD) : Mat 150000 128 :=
  up varOnePass (aX m c) (aPin m c) (aPout m c) (aWup m c) (aG0 m c) (aB0 m c)

abbrev chH1 (c : Dev nD) : Mat 150000 128 :=
  h1 varOnePass (aX m c) (aSkip m c) (aPin m c) (aPout m c) (aWup m c) (aG0 m c) (aB0 m c) (aW1 m c) (aB1 m c)

abbrev chH2 (c : Dev nD) : Mat 150000 128 :=
  h2 varOnePass (aX m c) (aSkip m c) (aPin m c) (aPout m c) (aWup m c) (aG0 m c) (aB0 m c) (aW1 m c) (aB1 m c)
    (aG1 m c) (aBe1 m c) (aW2 m c) (aB2 m c)

theorem V5_up (c : Dev nD) (hin : ∀ i, 0 ≤ (aPin m c i).toInt ∧ (aPin m c i).toInt < 40000) :
    upV (V5 m ρ) c = chUp m c :=
  (ChainB.upV_of (V5 m ρ) c (W5_conv m ρ c hin) (W5_mu m ρ c hin) (W5_va m ρ c hin) (W5_g m ρ c) (W5_b m ρ c)).trans
    (ChainB.up_stage (aX m c) (aPin m c) (aPout m c) (aWup m c) (aG0 m c) (aB0 m c))

theorem V5_h1 (c : Dev nD) (hin : ∀ i, 0 ≤ (aPin m c i).toInt ∧ (aPin m c i).toInt < 40000) :
    h1V (V5 m ρ) c = chH1 m c :=
  (ChainB.h1V_of (V5 m ρ) c (V5_up m ρ c hin) (W5_skip m ρ c) (W5_Wa m ρ c) (W5_Wb m ρ c) (W5_b1 m ρ c)).trans
    (ChainB.h1_stage (aX m c) (aSkip m c) (aPin m c) (aPout m c) (aWup m c) (aG0 m c) (aB0 m c) (aW1 m c) (aB1 m c))

theorem W6_up (c : Dev nD) (hin : ∀ i, 0 ≤ (aPin m c i).toInt ∧ (aPin m c i).toInt < 40000) :
    (W6 m ρ c (Proc.devRef .tc main_v28_0) : S150000x128.Idx → EReal) = chUp m c :=
  (W6_arr m ρ c 9).trans ((region2_up (V5 m ρ) c).trans (V5_up m ρ c hin))

theorem W6_h1 (c : Dev nD) (hin : ∀ i, 0 ≤ (aPin m c i).toInt ∧ (aPin m c i).toInt < 40000) :
    (W6 m ρ c (Proc.devRef .tc main_v28_1) : S150000x128.Idx → EReal) = chH1 m c :=
  (W6_arr m ρ c 10).trans ((region2_h1 (V5 m ρ) c).trans (V5_h1 m ρ c hin))

theorem W6_sum (c : Dev nD) (hin : ∀ i, 0 ≤ (aPin m c i).toInt ∧ (aPin m c i).toInt < 40000) :
    (W6 m ρ c (Proc.devRef .tc main_v28_2) : S1x128.Idx → EReal) = colSum (chH1 m c) :=
  (W6_arr m ρ c 11).trans ((region2_sum (V5 m ρ) c).trans (congrArg colSum (V5_h1 m ρ c hin)))

theorem W6_sumsq (c : Dev nD) (hin : ∀ i, 0 ≤ (aPin m c i).toInt ∧ (aPin m c i).toInt < 40000) :
    (W6 m ρ c (Proc.devRef .tc main_v28_3) : S1x128.Idx → EReal) = colSumSq (chH1 m c) :=
  (W6_arr m ρ c 12).trans ((region2_sumsq (V5 m ρ) c).trans (congrArg colSumSq (V5_h1 m ρ c hin)))

theorem W6_arg9 (c : Dev nD) : (W6 m ρ c (Proc.devRef .tc main_arg9) : S128.Idx → EReal) = aG1 m c :=
  (W6_of_ne m ρ c main_arg9 (by decide)).trans (W5_arg9 m ρ c)
theorem W6_arg10 (c : Dev nD) : (W6 m ρ c (Proc.devRef .tc main_arg10) : S128.Idx → EReal) = aBe1 m c :=
  (W6_of_ne m ρ c main_arg10 (by decide)).trans (W5_arg10 m ρ c)
theorem W6_arg11 (c : Dev nD) : (W6 m ρ c (Proc.devRef .tc main_arg11) : S128x128.Idx → EReal) = aW2 m c :=
  (W6_of_ne m ρ c main_arg11 (by decide)).trans (W5_arg11 m ρ c)
theorem W6_arg12 (c : Dev nD) : (W6 m ρ c (Proc.devRef .tc main_arg12) : S128.Idx → EReal) = aB2 m c :=
  (W6_of_ne m ρ c main_arg12 (by decide)).trans (W5_arg12 m ρ c)
theorem W6_arg13 (c : Dev nD) : (W6 m ρ c (Proc.devRef .tc main_arg13) : S128.Idx → EReal) = aG2 m c :=
  (W6_of_ne m ρ c main_arg13 (by decide)).trans (W5_arg13 m ρ c)
theorem W6_arg14 (c : Dev nD) : (W6 m ρ c (Proc.devRef .tc main_arg14) : S128.Idx → EReal) = aBe2 m c :=
  (W6_of_ne m ρ c main_arg14 (by decide)).trans (W5_arg14 m ρ c)

theorem W7_mu (c : Dev nD) (hin : ∀ i, 0 ≤ (aPin m c i).toInt ∧ (aPin m c i).toInt < 40000) :
    (W7 m ρ c (Proc.devRef .tc main_v37) : S1x128.Idx → EReal) = muRow (colSum (chH1 m c)) :=
  (host3_mu (W6 m ρ c)).trans (congrArg muRow (W6_sum m ρ c hin))
theorem W7_va (c : Dev nD) (hin : ∀ i, 0 ≤ (aPin m c i).toInt ∧ (aPin m c i).toInt < 40000) :
    (W7 m ρ c (Proc.devRef .tc main_v38) : S1x128.Idx → EReal) = vaRow (colSum (chH1 m c)) (colSumSq (chH1 m c)) :=
  (host3_va (W6 m ρ c)).trans (congrArg₂ vaRow (W6_sum m ρ c hin) (W6_sumsq m ρ c hin))
theorem W7_g (c : Dev nD) : (W7 m ρ c (Proc.devRef .tc main_v39) : S1x128.Idx → EReal) = rowOf (aG1 m c) :=
  (host3_g (W6 m ρ c)).trans (congrArg rowOf (W6_arg9 m ρ c))
theorem W7_b (c : Dev nD) : (W7 m ρ c (Proc.devRef .tc main_v40) : S1x128.Idx → EReal) = rowOf (aBe1 m c) :=
  (host3_b (W6 m ρ c)).trans (congrArg rowOf (W6_arg10 m ρ c))
theorem W7_b2 (c : Dev nD) : (W7 m ρ c (Proc.devRef .tc main_v41) : S1x128.Idx → EReal) = rowOf (aB2 m c) :=
  (host3_b2 (W6 m ρ c)).trans (congrArg rowOf (W6_arg12 m ρ c))

theorem W7_h1 (c : Dev nD) (hin : ∀ i, 0 ≤ (aPin m c i).toInt ∧ (aPin m c i).toInt < 40000) :
    (W7 m ρ c (Proc.devRef .tc main_v28_1) : S150000x128.Idx → EReal) = chH1 m c :=
  (StableHlo.after_of_forall_not_mem (b := Proc.devRef .tc main_v28_1) _ _ (by no_write hostOps3)).trans
    (W6_h1 m ρ c hin)
theorem W7_up (c : Dev nD) (hin : ∀ i, 0 ≤ (aPin m c i).toInt ∧ (aPin m c i).toInt < 40000) :
    (W7 m ρ c (Proc.devRef .tc main_v28_0) : S150000x128.Idx → EReal) = chUp m c :=
  (StableHlo.after_of_forall_not_mem (b := Proc.devRef .tc main_v28_0) _ _ (by no_write hostOps3)).trans
    (W6_up m ρ c hin)
theorem W7_arg11 (c : Dev nD) : (W7 m ρ c (Proc.devRef .tc main_arg11) : S128x128.Idx → EReal) = aW2 m c :=
  (StableHlo.after_of_forall_not_mem (b := Proc.devRef .tc main_arg11) _ _ (by no_write hostOps3)).trans
    (W6_arg11 m ρ c)
theorem W7_arg13 (c : Dev nD) : (W7 m ρ c (Proc.devRef .tc main_arg13) : S128.Idx → EReal) = aG2 m c :=
  (StableHlo.after_of_forall_not_mem (b := Proc.devRef .tc main_arg13) _ _ (by no_write hostOps3)).trans
    (W6_arg13 m ρ c)
theorem W7_arg14 (c : Dev nD) : (W7 m ρ c (Proc.devRef .tc main_arg14) : S128.Idx → EReal) = aBe2 m c :=
  (StableHlo.after_of_forall_not_mem (b := Proc.devRef .tc main_arg14) _ _ (by no_write hostOps3)).trans
    (W6_arg14 m ρ c)

theorem V7_h2 (c : Dev nD) (hin : ∀ i, 0 ≤ (aPin m c i).toInt ∧ (aPin m c i).toInt < 40000) :
    h2V (V7 m ρ) c = chH2 m c :=
  (ChainB.h2V_of (V7 m ρ) c (W7_h1 m ρ c hin) (W7_mu m ρ c hin) (W7_va m ρ c hin) (W7_g m ρ c) (W7_b m ρ c)
      (W7_arg11 m ρ c) (W7_b2 m ρ c)).trans
    (ChainB.h2_stage (aX m c) (aSkip m c) (aPin m c) (aPout m c) (aWup m c) (aG0 m c) (aB0 m c) (aW1 m c) (aB1 m c)
      (aG1 m c) (aBe1 m c) (aW2 m c) (aB2 m c))

theorem W8_h2 (c : Dev nD) (hin : ∀ i, 0 ≤ (aPin m c i).toInt ∧ (aPin m c i).toInt < 40000) :
    (W8 m ρ c (Proc.devRef .tc main_v42_0) : S150000x128.Idx → EReal) = chH2 m c :=
  (W8_arr m ρ c 7).trans ((region3_h2 (V7 m ρ) c).trans (V7_h2 m ρ c hin))
theorem W8_sum (c : Dev nD) (hin : ∀ i, 0 ≤ (aPin m c i).toInt ∧ (aPin m c i).toInt < 40000) :
    (W8 m ρ c (Proc.devRef .tc main_v42_1) : S1x128.Idx → EReal) = colSum (chH2 m c) :=
  (W8_arr m ρ c 8).trans ((region3_sum (V7 m ρ) c).trans (congrArg colSum (V7_h2 m ρ c hin)))
theorem W8_sumsq (c : Dev nD) (hin : ∀ i, 0 ≤ (aPin m c i).toInt ∧ (aPin m c i).toInt < 40000) :
    (W8 m ρ c (Proc.devRef .tc main_v42_2) : S1x128.Idx → EReal) = colSumSq (chH2 m c) :=
  (W8_arr m ρ c 9).trans ((region3_sumsq (V7 m ρ) c).trans (congrArg colSumSq (V7_h2 m ρ c hin)))

theorem W8_up (c : Dev nD) (hin : ∀ i, 0 ≤ (aPin m c i).toInt ∧ (aPin m c i).toInt < 40000) :
    (W8 m ρ c (Proc.devRef .tc main_v28_0) : S150000x128.Idx → EReal) = chUp m c :=
  (W8_of_ne m ρ c main_v28_0 (by decide)).trans (W7_up m ρ c hin)
theorem W8_arg13 (c : Dev nD) : (W8 m ρ c (Proc.devRef .tc main_arg13) : S128.Idx → EReal) = aG2 m c :=
  (W8_of_ne m ρ c main_arg13 (by decide)).trans (W7_arg13 m ρ c)
theorem W8_arg14 (c : Dev nD) : (W8 m ρ c (Proc.devRef .tc main_arg14) : S128.Idx → EReal) = aBe2 m c :=
  (W8_of_ne m ρ c main_arg14 (by decide)).trans (W7_arg14 m ρ c)

theorem W9_mu (c : Dev nD) (hin : ∀ i, 0 ≤ (aPin m c i).toInt ∧ (aPin m c i).toInt < 40000) :
    (W9 m ρ c (Proc.devRef .tc main_v51) : S1x128.Idx → EReal) = muRow (colSum (chH2 m c)) :=
  (host4_mu (W8 m ρ c)).trans (congrArg muRow (W8_sum m ρ c hin))
theorem W9_va (c : Dev nD) (hin : ∀ i, 0 ≤ (aPin m c i).toInt ∧ (aPin m c i).toInt < 40000) :
    (W9 m ρ c (Proc.devRef .tc main_v52) : S1x128.Idx → EReal) = vaRow (colSum (chH2 m c)) (colSumSq (chH2 m c)) :=
  (host4_va (W8 m ρ c)).trans (congrArg₂ vaRow (W8_sum m ρ c hin) (W8_sumsq m ρ c hin))
theorem W9_g (c : Dev nD) : (W9 m ρ c (Proc.devRef .tc main_v53) : S1x128.Idx → EReal) = rowOf (aG2 m c) :=
  (host4_g (W8 m ρ c)).trans (congrArg rowOf (W8_arg13 m ρ c))
theorem W9_b (c : Dev nD) : (W9 m ρ c (Proc.devRef .tc main_v54) : S1x128.Idx → EReal) = rowOf (aBe2 m c) :=
  (host4_b (W8 m ρ c)).trans (congrArg rowOf (W8_arg14 m ρ c))

theorem W9_h2 (c : Dev nD) (hin : ∀ i, 0 ≤ (aPin m c i).toInt ∧ (aPin m c i).toInt < 40000) :
    (W9 m ρ c (Proc.devRef .tc main_v42_0) : S150000x128.Idx → EReal) = chH2 m c :=
  (StableHlo.after_of_forall_not_mem (b := Proc.devRef .tc main_v42_0) _ _ (by no_write hostOps4)).trans
    (W8_h2 m ρ c hin)
theorem W9_up (c : Dev nD) (hin : ∀ i, 0 ≤ (aPin m c i).toInt ∧ (aPin m c i).toInt < 40000) :
    (W9 m ρ c (Proc.devRef .tc main_v28_0) : S150000x128.Idx → EReal) = chUp m c :=
  (StableHlo.after_of_forall_not_mem (b := Proc.devRef .tc main_v28_0) _ _ (by no_write hostOps4)).trans
    (W8_up m ρ c hin)

theorem W10_result (c : Dev nD) (hin : ∀ i, 0 ≤ (aPin m c i).toInt ∧ (aPin m c i).toInt < 40000) :
    (W10 m ρ c (Proc.devRef .tc main_v55) : S150000x128.Idx → EReal)
      = out varOnePass (aX m c) (aSkip m c) (aPin m c) (aPout m c) (aWup m c) (aG0 m c) (aB0 m c) (aW1 m c) (aB1 m c)
          (aG1 m c) (aBe1 m c) (aW2 m c) (aB2 m c) (aG2 m c) (aBe2 m c) :=
  (W10_arr m ρ c 6).trans <| (region4_out (V9 m ρ) c).trans <|
    (ChainB.outV_of (V9 m ρ) c (W9_h2 m ρ c hin) (W9_mu m ρ c hin) (W9_va m ρ c hin) (W9_g m ρ c) (W9_b m ρ c)
      (W9_up m ρ c hin)).trans
    (ChainB.out_stage (aX m c) (aSkip m c) (aPin m c) (aPout m c) (aWup m c) (aG0 m c) (aB0 m c) (aW1 m c) (aB1 m c)
      (aG1 m c) (aBe1 m c) (aW2 m c) (aB2 m c) (aG2 m c) (aBe2 m c))

end Cert.KernelIdeal.Val

end
-- ==== Proof.Alg.lean ====
import proofs.«425338_j83640193122774_2_alg».proof.Proof.Spec
import Mathlib.Tactic.FieldSimp
import Mathlib.Tactic.Ring
import Mathlib.Tactic.NormNum
import Mathlib.Tactic.Positivity

noncomputable section

open scoped BigOperators

namespace Cert.Spec

open Idealize.ShloMosaic Idealize.ShloMosaic.ValueIdx

theorem Finite.coe (r : ℝ) : Finite (r : EReal) := And.intro (EReal.coe_ne_bot r) (EReal.coe_ne_top r)

theorem Finite.exists {a : EReal} (h : Finite a) : ∃ r : ℝ, a = (r : EReal) :=
  Exists.intro a.toReal (EReal.coe_toReal (And.right h) (And.left h)).symm

theorem Finite.zero : Finite (0 : EReal) := Finite.coe 0

theorem Finite.add {a b : EReal} (ha : Finite a) (hb : Finite b) : Finite (a + b) := by
  obtain ⟨r, rfl⟩ := ha.exists
  obtain ⟨s, rfl⟩ := hb.exists
  rw [← EReal.coe_add]; exact Finite.coe _

theorem Finite.sub {a b : EReal} (ha : Finite a) (hb : Finite b) : Finite (a - b) := by
  obtain ⟨r, rfl⟩ := ha.exists
  obtain ⟨s, rfl⟩ := hb.exists
  rw [← EReal.coe_sub]; exact Finite.coe _

theorem Finite.mul {a b : EReal} (ha : Finite a) (hb : Finite b) : Finite (a * b) := by
  obtain ⟨r, rfl⟩ := ha.exists
  obtain ⟨s, rfl⟩ := hb.exists
  rw [← EReal.coe_mul]; exact Finite.coe _

theorem Finite.max_zero {a : EReal} (ha : Finite a) : Finite (max a 0) := by
  rcases max_choice a 0 with h | h
  · rw [h]; exact ha
  · rw [h]; exact Finite.zero

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Finite.sum {ι : Type} (s : Finset ι) (f : ι → EReal) (hf : ∀ i ∈ s, Finite (f i)) :
    Finite (∑ i ∈ s, f i) := by
  classical
  induction s using Finset.induction_on with
  | empty => rw [Finset.sum_empty]; exact Finite.zero
  | insert a s ha ih =>
    rw [Finset.sum_insert ha]
    exact (hf a (Finset.mem_insert_self a s)).add (ih fun i hi => hf i (Finset.mem_insert_of_mem hi))

theorem cnt_eq : cnt = ((150000 : ℝ) : EReal) := by
  simp [cnt, Ideal.ofBits, Ideal.ieee, -EReal.coe_mul]; norm_num

theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

theorem div_cnt (a : EReal) : Ideal.div a cnt = a * ((1 / 150000 : ℝ) : EReal) := by
  rw [cnt_eq]; exact Ideal.div_coe (by norm_num) a

-- Expanding the square and using Σ f = n·mean: the mean of the squares less the squared mean is the mean squared deviation.
theorem var_real {n : ℕ} (f : Fin n → ℝ) (N : ℝ) (hN : N = (n : ℝ)) (hN0 : N ≠ 0) :
    (∑ r, f r * f r) * (1 / N) - ((∑ r, f r) * (1 / N)) * ((∑ r, f r) * (1 / N))
      = (∑ r, (f r - (∑ r, f r) * (1 / N)) * (f r - (∑ r, f r) * (1 / N))) * (1 / N) := by
  subst hN
  generalize hS : (∑ r, f r) = S
  have hsq : ∀ r, (f r - S * (1 / (n : ℝ))) * (f r - S * (1 / (n : ℝ)))
      = f r * f r - 2 * (S * (1 / (n : ℝ))) * f r + (S * (1 / (n : ℝ))) * (S * (1 / (n : ℝ))) := fun r => by ring
  have hsum : (∑ r, (f r - S * (1 / (n : ℝ))) * (f r - S * (1 / (n : ℝ))))
      = (∑ r, f r * f r) - 2 * (S * (1 / (n : ℝ))) * S + (n : ℝ) * ((S * (1 / (n : ℝ))) * (S * (1 / (n : ℝ)))) := by
    simp only [hsq, Finset.sum_add_distrib, Finset.sum_sub_distrib, ← Finset.mul_sum, Finset.sum_const,
      Finset.card_univ, Fintype.card_fin, nsmul_eq_mul, hS]
    ring
  rw [hsum]; field_simp; ring

theorem mean_coe (h : Mat 150000 128) (c : Fin 128) (f : Fin 150000 → ℝ) (hf : ∀ r, h (ix2 r c) = (f r : EReal)) :
    mean h c = (((∑ r, f r) * (1 / 150000) : ℝ) : EReal) := by
  rw [mean, div_cnt]
  simp only [hf, EReal.coe_mul, coe_sum]

theorem varOnePass_coe (h : Mat 150000 128) (c : Fin 128) (f : Fin 150000 → ℝ)
    (hf : ∀ r, h (ix2 r c) = (f r : EReal)) :
    varOnePass h c = (((∑ r, f r * f r) * (1 / 150000)
      - ((∑ r, f r) * (1 / 150000)) * ((∑ r, f r) * (1 / 150000)) : ℝ) : EReal) := by
  rw [varOnePass, div_cnt, mean_coe h c f hf]
  simp only [hf, EReal.coe_sub, EReal.coe_mul, coe_sum]

theorem varTwoPass_coe (h : Mat 150000 128) (c : Fin 128) (f : Fin 150000 → ℝ)
    (hf : ∀ r, h (ix2 r c) = (f r : EReal)) :
    varTwoPass h c = (((∑ r, (f r - (∑ r, f r) * (1 / 150000)) * (f r - (∑ r, f r) * (1 / 150000)))
      * (1 / 150000) : ℝ) : EReal) := by
  rw [varTwoPass, div_cnt, mean_coe h c f hf]
  simp only [hf, EReal.coe_sub, EReal.coe_mul, coe_sum]

-- On a column of real numbers the two spellings of the variance agree.
theorem var_eq (h : Mat 150000 128) (hh : ∀ i, Finite (h i)) : varOnePass h = varTwoPass h := by
  funext c
  choose f hf using fun r : Fin 150000 => (hh (ix2 r c)).exists
  rw [varOnePass_coe h c f hf, varTwoPass_coe h c f hf, var_real f 150000 (by norm_num) (by norm_num)]

theorem varTwoPass_nonneg (h : Mat 150000 128) (hh : ∀ i, Finite (h i)) (c : Fin 128) :
    ∃ v : ℝ, 0 ≤ v ∧ varTwoPass h c = (v : EReal) := by
  choose f hf using fun r : Fin 150000 => (hh (ix2 r c)).exists
  exact ⟨_, mul_nonneg (Finset.sum_nonneg fun r _ => mul_self_nonneg _) (by norm_num), varTwoPass_coe h c f hf⟩

theorem rsqrt_finite {v : ℝ} (hv : 0 ≤ v) : Finite (Ideal.rsqrt ((v : EReal) + eps)) := by
  obtain ⟨e, he, hE⟩ := eps_pos
  have hp : 0 < v + e := add_pos_of_nonneg_of_pos hv he
  rw [hE, ← EReal.coe_add, Ideal.rsqrt_coe, if_neg (not_lt.mpr hp.le), if_neg hp.ne']
  exact Finite.coe _

theorem mat_finite {a b : Nat} (f : Fin a → Fin b → EReal) (hf : ∀ r c, Finite (f r c)) (i : (⟨2, ![a, b]⟩ : Shape).Idx) :
    Finite (mat f i) := hf (i 0) (i 1)

theorem mean_finite (h : Mat 150000 128) (hh : ∀ i, Finite (h i)) (c : Fin 128) : Finite (mean h c) := by
  rw [mean, div_cnt]
  exact (Finite.sum _ _ fun r _ => hh (ix2 r c)).mul (Finite.coe _)

theorem bnRelu_finite (v : Fin 128 → EReal) (h : Mat 150000 128) (g b : Row 128)
    (hv : ∀ c, ∃ w : ℝ, 0 ≤ w ∧ v c = (w : EReal)) (hh : ∀ i, Finite (h i))
    (hg : ∀ i, Finite (g i)) (hb : ∀ i, Finite (b i)) (r : Fin 150000) (c : Fin 128) :
    Finite (bnRelu v h g b r c) := by
  obtain ⟨w, hw, hvw⟩ := hv c
  rw [bnRelu, hvw]
  exact (((((hh (ix2 r c)).sub (mean_finite h hh c)).mul (rsqrt_finite hw)).mul (hg (ix1 c))).add (hb (ix1 c))).max_zero

theorem contrib_finite (x : Mat 40000 128) (pin : IMat 8 150000) (Wup : Ten 8 128 128)
    (hx : ∀ i, Finite (x i)) (hWup : ∀ i, Finite (Wup i)) (k : Fin 8) (p : Fin 150000) (c : Fin 128) :
    Finite (contrib x pin Wup k p c) := by
  rw [contrib]
  exact Finite.sum _ _ fun j _ => (hx _).mul (hWup _)

theorem conv_finite (x : Mat 40000 128) (pin pout : IMat 8 150000) (Wup : Ten 8 128 128)
    (hx : ∀ i, Finite (x i)) (hWup : ∀ i, Finite (Wup i)) (r : Fin 150000) (c : Fin 128) :
    Finite (conv x pin pout Wup r c) := by
  rw [conv]
  exact Finite.sum _ _ fun k _ => Finite.sum _ _ fun p _ => contrib_finite x pin Wup hx hWup k p c

theorem lin1_finite (W1 : Mat 256 128) (b1 : Row 128) (u s : Mat 150000 128)
    (hW1 : ∀ i, Finite (W1 i)) (hb1 : ∀ i, Finite (b1 i)) (hu : ∀ i, Finite (u i)) (hs : ∀ i, Finite (s i))
    (r : Fin 150000) (c : Fin 128) : Finite (lin1 W1 b1 u s r c) := by
  rw [lin1]
  exact ((Finite.sum _ _ fun j _ => (hu _).mul (hW1 _)).add (Finite.sum _ _ fun j _ => (hs _).mul (hW1 _))).add (hb1 _)

theorem lin2_finite (W2 : Mat 128 128) (b2 : Row 128) (h : Mat 150000 128)
    (hW2 : ∀ i, Finite (W2 i)) (hb2 : ∀ i, Finite (b2 i)) (hh : ∀ i, Finite (h i))
    (r : Fin 150000) (c : Fin 128) : Finite (lin2 W2 b2 h r c) := by
  rw [lin2]
  exact (Finite.sum _ _ fun j _ => (hh _).mul (hW2 _)).add (hb2 _)

theorem bn_stage_finite (h : Mat 150000 128) (g b : Row 128) (hh : ∀ i, Finite (h i))
    (hg : ∀ i, Finite (g i)) (hb : ∀ i, Finite (b i)) (i : (⟨2, ![150000, 128]⟩ : Shape).Idx) :
    Finite (mat (bnRelu (varTwoPass h) h g b) i) :=
  mat_finite _ (bnRelu_finite _ h g b (varTwoPass_nonneg h hh) hh hg hb) i

section Stages

variable (x : Mat 40000 128) (skip : Mat 150000 128) (pin pout : IMat 8 150000) (Wup : Ten 8 128 128)
  (g0 b0 : Row 128) (W1 : Mat 256 128) (b1 g1 be1 : Row 128) (W2 : Mat 128 128) (b2 g2 be2 : Row 128)

theorem convM_finite (hx : ∀ i, Finite (x i)) (hWup : ∀ i, Finite (Wup i)) (i : (⟨2, ![150000, 128]⟩ : Shape).Idx) :
    Finite (convM x pin pout Wup i) :=
  mat_finite _ (conv_finite x pin pout Wup hx hWup) i

theorem up_eq (hx : ∀ i, Finite (x i)) (hWup : ∀ i, Finite (Wup i)) :
    up varOnePass x pin pout Wup g0 b0 = up varTwoPass x pin pout Wup g0 b0 := by
  rw [up, up, var_eq _ (convM_finite x pin pout Wup hx hWup)]

theorem up_finite (hx : ∀ i, Finite (x i)) (hWup : ∀ i, Finite (Wup i)) (hg0 : ∀ i, Finite (g0 i))
    (hb0 : ∀ i, Finite (b0 i)) (i : (⟨2, ![150000, 128]⟩ : Shape).Idx) :
    Finite (up varTwoPass x pin pout Wup g0 b0 i) := by
  rw [up]
  exact bn_stage_finite _ g0 b0 (convM_finite x pin pout Wup hx hWup) hg0 hb0 i

theorem h1_eq (hx : ∀ i, Finite (x i)) (hWup : ∀ i, Finite (Wup i)) :
    h1 varOnePass x skip pin pout Wup g0 b0 W1 b1 = h1 varTwoPass x skip pin pout Wup g0 b0 W1 b1 := by
  rw [h1, h1, up_eq x pin pout Wup g0 b0 hx hWup]

theorem h1_finite (hx : ∀ i, Finite (x i)) (hskip : ∀ i, Finite (skip i)) (hWup : ∀ i, Finite (Wup i))
    (hg0 : ∀ i, Finite (g0 i)) (hb0 : ∀ i, Finite (b0 i)) (hW1 : ∀ i, Finite (W1 i)) (hb1 : ∀ i, Finite (b1 i))
    (i : (⟨2, ![150000, 128]⟩ : Shape).Idx) :
    Finite (h1 varTwoPass x skip pin pout Wup g0 b0 W1 b1 i) := by
  rw [h1]
  exact mat_finite _ (lin1_finite W1 b1 _ skip hW1 hb1 (up_finite x pin pout Wup g0 b0 hx hWup hg0 hb0) hskip) i

theorem h1n_eq (hx : ∀ i, Finite (x i)) (hskip : ∀ i, Finite (skip i)) (hWup : ∀ i, Finite (Wup i))
    (hg0 : ∀ i, Finite (g0 i)) (hb0 : ∀ i, Finite (b0 i)) (hW1 : ∀ i, Finite (W1 i)) (hb1 : ∀ i, Finite (b1 i)) :
    h1n varOnePass x skip pin pout Wup g0 b0 W1 b1 g1 be1 = h1n varTwoPass x skip pin pout Wup g0 b0 W1 b1 g1 be1 := by
  rw [h1n, h1n, h1_eq x skip pin pout Wup g0 b0 W1 b1 hx hWup,
    var_eq _ (h1_finite x skip pin pout Wup g0 b0 W1 b1 hx hskip hWup hg0 hb0 hW1 hb1)]

theorem h1n_finite (hx : ∀ i, Finite (x i)) (hskip : ∀ i, Finite (skip i)) (hWup : ∀ i, Finite (Wup i))
    (hg0 : ∀ i, Finite (g0 i)) (hb0 : ∀ i, Finite (b0 i)) (hW1 : ∀ i, Finite (W1 i)) (hb1 : ∀ i, Finite (b1 i))
    (hg1 : ∀ i, Finite (g1 i)) (hbe1 : ∀ i, Finite (be1 i)) (i : (⟨2, ![150000, 128]⟩ : Shape).Idx) :
    Finite (h1n varTwoPass x skip pin pout Wup g0 b0 W1 b1 g1 be1 i) := by
  rw [h1n]
  exact bn_stage_finite _ g1 be1 (h1_finite x skip pin pout Wup g0 b0 W1 b1 hx hskip hWup hg0 hb0 hW1 hb1) hg1 hbe1 i

theorem h2_eq (hx : ∀ i, Finite (x i)) (hskip : ∀ i, Finite (skip i)) (hWup : ∀ i, Finite (Wup i))
    (hg0 : ∀ i, Finite (g0 i)) (hb0 : ∀ i, Finite (b0 i)) (hW1 : ∀ i, Finite (W1 i)) (hb1 : ∀ i, Finite (b1 i)) :
    h2 varOnePass x skip pin pout Wup g0 b0 W1 b1 g1 be1 W2 b2
      = h2 varTwoPass x skip pin pout Wup g0 b0 W1 b1 g1 be1 W2 b2 := by
  rw [h2, h2, h1n_eq x skip pin pout Wup g0 b0 W1 b1 g1 be1 hx hskip hWup hg0 hb0 hW1 hb1]

theorem h2_finite (hx : ∀ i, Finite (x i)) (hskip : ∀ i, Finite (skip i)) (hWup : ∀ i, Finite (Wup i))
    (hg0 : ∀ i, Finite (g0 i)) (hb0 : ∀ i, Finite (b0 i)) (hW1 : ∀ i, Finite (W1 i)) (hb1 : ∀ i, Finite (b1 i))
    (hg1 : ∀ i, Finite (g1 i)) (hbe1 : ∀ i, Finite (be1 i)) (hW2 : ∀ i, Finite (W2 i)) (hb2 : ∀ i, Finite (b2 i))
    (i : (⟨2, ![150000, 128]⟩ : Shape).Idx) :
    Finite (h2 varTwoPass x skip pin pout Wup g0 b0 W1 b1 g1 be1 W2 b2 i) := by
  rw [h2]
  exact mat_finite _ (lin2_finite W2 b2 _ hW2 hb2
    (h1n_finite x skip pin pout Wup g0 b0 W1 b1 g1 be1 hx hskip hWup hg0 hb0 hW1 hb1 hg1 hbe1)) i

end Stages

-- Every array of the chain is real-valued when the inputs are, so each variance may be respelt stage by stage.
theorem out_onePass_eq_twoPass
    (x : Mat 40000 128) (skip : Mat 150000 128) (pin pout : IMat 8 150000) (Wup : Ten 8 128 128)
    (g0 b0 : Row 128) (W1 : Mat 256 128) (b1 g1 be1 : Row 128) (W2 : Mat 128 128) (b2 g2 be2 : Row 128)
    (hx : ∀ i, Finite (x i)) (hskip : ∀ i, Finite (skip i)) (hWup : ∀ i, Finite (Wup i))
    (hg0 : ∀ i, Finite (g0 i)) (hb0 : ∀ i, Finite (b0 i)) (hW1 : ∀ i, Finite (W1 i)) (hb1 : ∀ i, Finite (b1 i))
    (hg1 : ∀ i, Finite (g1 i)) (hbe1 : ∀ i, Finite (be1 i)) (hW2 : ∀ i, Finite (W2 i)) (hb2 : ∀ i, Finite (b2 i)) :
    out varOnePass x skip pin pout Wup g0 b0 W1 b1 g1 be1 W2 b2 g2 be2
      = out varTwoPass x skip pin pout Wup g0 b0 W1 b1 g1 be1 W2 b2 g2 be2 := by
  unfold out
  rw [h2_eq x skip pin pout Wup g0 b0 W1 b1 g1 be1 W2 b2 hx hskip hWup hg0 hb0 hW1 hb1,
    up_eq x pin pout Wup g0 b0 hx hWup,
    var_eq _ (h2_finite x skip pin pout Wup g0 b0 W1 b1 g1 be1 W2 b2 hx hskip hWup hg0 hb0 hW1 hb1 hg1 hbe1 hW2 hb2)]

end Cert.Spec

end
-- ==== Proof.PreDecode.lean ====
import proofs.«425338_j83640193122774_2_alg».proof.Pre_finite_inputs
import proofs.«425338_j83640193122774_2_alg».proof.Proof.Gen.Pre_finite_inputs
import proofs.«425338_j83640193122774_2_alg».proof.Proof.Spec
import Idealize.ShloMosaic.Lib.ReduceAll
import Idealize.ShloMosaic.Lib.StableHlo.Predicate

set_option maxRecDepth 16384

noncomputable section

namespace Cert.PreDecode

open Idealize.ShloMosaic Idealize.ShloMosaic.ValueIdx Cert.Spec

instance : Subsingleton (⟨0, ![]⟩ : Shape).Idx := ⟨fun _ _ => funext fun d => d.elim0⟩

theorem inf_word : Ideal.ofBits .f32 0x7F800000#32 = (⊤ : EReal) := by
  simp [Ideal.ofBits, Ideal.ieee]

theorem finite_of_abs_lt (x : EReal)
    (h : Ideal.cmp .olt (max x (-x)) (Ideal.ofBits .f32 0x7F800000#32) = 1#1) : Finite x := by
  rw [inf_word] at h
  simp only [Ideal.cmp, StableHlo.Predicate.ofBool_eq_one_iff, decide_eq_true_eq] at h
  induction x using EReal.rec with
  | bot => simp at h
  | coe r => exact ⟨EReal.coe_ne_bot r, EReal.coe_ne_top r⟩
  | top => simp at h

theorem finite_of_all {s : Shape} {axes : List (Fin s.rank)} (a : s.Idx → EReal)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
          (cmpf (F := Ideal) (φ := .f32) .olt (Host.absf (F := Ideal) (φ := .f32) a)
            (broadcastInDim s ![] hb (constant (F := Ideal) ⟨0, ![]⟩ .f32 0x7F800000#32)))
          (constantI ⟨0, ![]⟩ 1 1#1) hr h0 ix0 = 1#1) (i : s.Idx) : Finite (a i) :=
  finite_of_abs_lt (a i)
    (Host.reduce_andi_all
      (cmpf (F := Ideal) (φ := .f32) .olt (Host.absf (F := Ideal) (φ := .f32) a)
        (broadcastInDim s ![] hb (constant (F := Ideal) ⟨0, ![]⟩ .f32 0x7F800000#32)))
      (constantI ⟨0, ![]⟩ 1 1#1) hr h0 ix0 e i)

theorem range_of_all {s : Shape} {axes : List (Fin s.rank)} (a : s.Idx → BitVec 32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
          (andi (cmpi .sge a (broadcastInDim s ![] hb (constantI ⟨0, ![]⟩ 32 0#32)))
            (cmpi .slt a (broadcastInDim s ![] hb (constantI ⟨0, ![]⟩ 32 40000#32))))
          (constantI ⟨0, ![]⟩ 1 1#1) hr h0 ix0 = 1#1) (i : s.Idx) :
    0 ≤ (a i).toInt ∧ (a i).toInt < 40000 := by
  have hi : IntOp.andi (IntOp.cmpi .sge (a i) 0#32) (IntOp.cmpi .slt (a i) 40000#32) = 1#1 :=
    Host.reduce_andi_all
      (andi (cmpi .sge a (broadcastInDim s ![] hb (constantI ⟨0, ![]⟩ 32 0#32)))
        (cmpi .slt a (broadcastInDim s ![] hb (constantI ⟨0, ![]⟩ 32 40000#32))))
      (constantI ⟨0, ![]⟩ 1 1#1) hr h0 ix0 e i
  obtain ⟨hge, hlt⟩ := IntOp.andi_eq_one.1 hi
  have z0 : (0#32 : BitVec 32).toInt = 0 := by decide
  have z1 : (40000#32 : BitVec 32).toInt = 40000 := by decide
  have hge' := IntOp.cmpi_sge.1 hge
  have hlt' := IntOp.cmpi_slt.1 hlt
  rw [z0] at hge'
  rw [z1] at hlt'
  exact ⟨hge', hlt'⟩

theorem andi_ix0 (x y : IVec ⟨0, ![]⟩ 1) (h : andi x y ix0 = 1#1) : x ix0 = 1#1 ∧ y ix0 = 1#1 :=
  IntOp.andi_eq_one.1 h

-- The precondition, conjunct by conjunct: every float argument is real-valued and every input word lies in the coarse table's range.
theorem of_pre [hP : Cert.Pre_finite_inputs.Facts]
    (a0 : Mat 40000 128) (a1 : Mat 150000 128) (a2 a3 : IMat 8 150000) (a4 : Ten 8 128 128) (a5 a6 : Row 128)
    (a7 : Mat 256 128) (a8 a9 a10 : Row 128) (a11 : Mat 128 128) (a12 a13 a14 : Row 128)
    (h : Cert.Pre_finite_inputs.fn (F := Ideal) a0 a1 a2 a3 a4 a5 a6 a7 a8 a9 a10 a11 a12 a13 a14 = fun _ => 1#1) :
    (∀ i, Finite (a0 i)) ∧ (∀ i, Finite (a1 i)) ∧ (∀ i, 0 ≤ (a2 i).toInt ∧ (a2 i).toInt < 40000) ∧ (∀ i, Finite (a4 i))
      ∧ (∀ i, Finite (a5 i)) ∧ (∀ i, Finite (a6 i)) ∧ (∀ i, Finite (a7 i)) ∧ (∀ i, Finite (a8 i)) ∧ (∀ i, Finite (a9 i))
      ∧ (∀ i, Finite (a10 i)) ∧ (∀ i, Finite (a11 i)) ∧ (∀ i, Finite (a12 i)) ∧ (∀ i, Finite (a13 i)) ∧ (∀ i, Finite (a14 i)) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, h2⟩ := andi_ix0 _ _ e
  obtain ⟨e, h14⟩ := andi_ix0 _ _ e
  obtain ⟨e, h13⟩ := andi_ix0 _ _ e
  obtain ⟨e, h12⟩ := andi_ix0 _ _ e
  obtain ⟨e, h11⟩ := andi_ix0 _ _ e
  obtain ⟨e, h10⟩ := andi_ix0 _ _ e
  obtain ⟨e, h9⟩ := andi_ix0 _ _ e
  obtain ⟨e, h8⟩ := andi_ix0 _ _ e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨h0, h1⟩ := andi_ix0 _ _ e
  exact ⟨finite_of_all a0 _ _ _ h0, finite_of_all a1 _ _ _ h1, range_of_all a2 _ _ _ h2, finite_of_all a4 _ _ _ h4,
    finite_of_all a5 _ _ _ h5, finite_of_all a6 _ _ _ h6, finite_of_all a7 _ _ _ h7, finite_of_all a8 _ _ _ h8,
    finite_of_all a9 _ _ _ h9, finite_of_all a10 _ _ _ h10, finite_of_all a11 _ _ _ h11, finite_of_all a12 _ _ _ h12,
    finite_of_all a13 _ _ _ h13, finite_of_all a14 _ _ _ h14⟩

end Cert.PreDecode

end
-- ==== Proof.RefOps.lean ====
/-
  The reference's @main as eleven lists of host operations, in program order: one list per round of the inverse
  convolution (each ending at its scatter-add), then the first normalisation, the first affine map with the second
  normalisation, and the second affine map with the third normalisation and the residual.
-/
import proofs.«425338_j83640193122774_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 26 of @main. -/
abbrev ops0 : List (HloOp τ sig (Elt F)) :=
  [ nullary main_cst (constant S_ .f32 0x00000000#32),
    unary main_cst main_v0 (broadcastInDim S150000x128 ![] bcast_S_S150000x128 : (⟨S_, .f32⟩ : BufTy).Contents (Elt F) → (⟨S150000x128, .f32⟩ : BufTy).Contents (Elt F)),
    unary main_arg2 main_v1 ((extractStridedSlice S1x150000 ![0, 0] · slices_S8x150000_S1x150000_0_0) : (⟨S8x150000, .i32⟩ : BufTy).Contents (Elt F) → (⟨S1x150000, .i32⟩ : BufTy).Contents (Elt F)),
    reshape main_v1 main_v2 rfl shapeCasts_S1x150000_S150000,
    nullary main_c (constantI S_ 32 0#32),
    unary main_c main_v3 (broadcastInDim S150000 ![] bcast_S_S150000 : (⟨S_, .i32⟩ : BufTy).Contents (Elt F) → (⟨S150000, .i32⟩ : BufTy).Contents (Elt F)),
    binary main_v2 main_v3 main_v4 (cmpi .slt : (⟨S150000, .i32⟩ : BufTy).Contents (Elt F) → (⟨S150000, .i32⟩ : BufTy).Contents (Elt F) → (⟨S150000, .i1⟩ : BufTy).Contents (Elt F)),
    nullary main_c_0 (constantI S_ 32 40000#32),
    unary main_c_0 main_v5 (broadcastInDim S150000 ![] bcast_S_S150000 : (⟨S_, .i32⟩ : BufTy).Contents (Elt F) → (⟨S150000, .i32⟩ : BufTy).Contents (Elt F)),
    binary main_v2 main_v5 main_v6 (addi : (⟨S150000, .i32⟩ : BufTy).Contents (Elt F) → (⟨S150000, .i32⟩ : BufTy).Contents (Elt F) → (⟨S150000, .i32⟩ : BufTy).Contents (Elt F)),
    ternary main_v4 main_v6 main_v2 main_v7 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v7 main_v8 (broadcastInDim S150000x1 ![0] bcast_S150000_S150000x1_0 : (⟨S150000, .i32⟩ : BufTy).Contents (Elt F) → (⟨S150000x1, .i32⟩ : BufTy).Contents (Elt F)),
    binary main_arg0 main_v8 main_v9 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v10 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v10 main_v11 rfl shapeCasts_S1x128x128_S128x128,
    binary main_v9 main_v11 main_v12 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v13 ((extractStridedSlice S1x150000 ![0, 0] · slices_S8x150000_S1x150000_0_0) : (⟨S8x150000, .i32⟩ : BufTy).Contents (Elt F) → (⟨S1x150000, .i32⟩ : BufTy).Contents (Elt F)),
    reshape main_v13 main_v14 rfl shapeCasts_S1x150000_S150000,
    nullary main_c_1 (constantI S_ 32 0#32),
    unary main_c_1 main_v15 (broadcastInDim S150000 ![] bcast_S_S150000 : (⟨S_, .i32⟩ : BufTy).Contents (Elt F) → (⟨S150000, .i32⟩ : BufTy).Contents (Elt F)),
    binary main_v14 main_v15 main_v16 (cmpi .slt : (⟨S150000, .i32⟩ : BufTy).Contents (Elt F) → (⟨S150000, .i32⟩ : BufTy).Contents (Elt F) → (⟨S150000, .i1⟩ : BufTy).Contents (Elt F)),
    nullary main_c_2 (constantI S_ 32 150000#32),
    unary main_c_2 main_v17 (broadcastInDim S150000 ![] bcast_S_S150000 : (⟨S_, .i32⟩ : BufTy).Contents (Elt F) → (⟨S150000, .i32⟩ : BufTy).Contents (Elt F)),
    binary main_v14 main_v17 main_v18 (addi : (⟨S150000, .i32⟩ : BufTy).Contents (Elt F) → (⟨S150000, .i32⟩ : BufTy).Contents (Elt F) → (⟨S150000, .i32⟩ : BufTy).Contents (Elt F)),
    ternary main_v16 main_v18 main_v14 main_v19 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v19 main_v20 (broadcastInDim S150000x1 ![0] bcast_S150000_S150000x1_0 : (⟨S150000, .i32⟩ : BufTy).Contents (Elt F) → (⟨S150000x1, .i32⟩ : BufTy).Contents (Elt F)),
    ternary main_v0 main_v20 main_v12 main_v21 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 27 to 51 of @main. -/
abbrev ops1 : List (HloOp τ sig (Elt F)) :=
  [ unary main_arg2 main_v22 ((extractStridedSlice S1x150000 ![1, 0] · slices_S8x150000_S1x150000_1_0) : (⟨S8x150000, .i32⟩ : BufTy).Contents (Elt F) → (⟨S1x150000, .i32⟩ : BufTy).Contents (Elt F)),
    reshape main_v22 main_v23 rfl shapeCasts_S1x150000_S150000,
    nullary main_c_3 (constantI S_ 32 0#32),
    unary main_c_3 main_v24 (broadcastInDim S150000 ![] bcast_S_S150000 : (⟨S_, .i32⟩ : BufTy).Contents (Elt F) → (⟨S150000, .i32⟩ : BufTy).Contents (Elt F)),
    binary main_v23 main_v24 main_v25 (cmpi .slt : (⟨S150000, .i32⟩ : BufTy).Contents (Elt F) → (⟨S150000, .i32⟩ : BufTy).Contents (Elt F) → (⟨S150000, .i1⟩ : BufTy).Contents (Elt F)),
    nullary main_c_4 (constantI S_ 32 40000#32),
    unary main_c_4 main_v26 (broadcastInDim S150000 ![] bcast_S_S150000 : (⟨S_, .i32⟩ : BufTy).Contents (Elt F) → (⟨S150000, .i32⟩ : BufTy).Contents (Elt F)),
    binary main_v23 main_v26 main_v27 (addi : (⟨S150000, .i32⟩ : BufTy).Contents (Elt F) → (⟨S150000, .i32⟩ : BufTy).Contents (Elt F) → (⟨S150000, .i32⟩ : BufTy).Contents (Elt F)),
    ternary main_v25 main_v27 main_v23 main_v28 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v28 main_v29 (broadcastInDim S150000x1 ![0] bcast_S150000_S150000x1_0 : (⟨S150000, .i32⟩ : BufTy).Contents (Elt F) → (⟨S150000x1, .i32⟩ : BufTy).Contents (Elt F)),
    binary main_arg0 main_v29 main_v30 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v31 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v31 main_v32 rfl shapeCasts_S1x128x128_S128x128,
    binary main_v30 main_v32 main_v33 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v34 ((extractStridedSlice S1x150000 ![1, 0] · slices_S8x150000_S1x150000_1_0) : (⟨S8x150000, .i32⟩ : BufTy).Contents (Elt F) → (⟨S1x150000, .i32⟩ : BufTy).Contents (Elt F)),
    reshape main_v34 main_v35 rfl shapeCasts_S1x150000_S150000,
    nullary main_c_5 (constantI S_ 32 0#32),
    unary main_c_5 main_v36 (broadcastInDim S150000 ![] bcast_S_S150000 : (⟨S_, .i32⟩ : BufTy).Contents (Elt F) → (⟨S150000, .i32⟩ : BufTy).Contents (Elt F)),
    binary main_v35 main_v36 main_v37 (cmpi .slt : (⟨S150000, .i32⟩ : BufTy).Contents (Elt F) → (⟨S150000, .i32⟩ : BufTy).Contents (Elt F) → (⟨S150000, .i1⟩ : BufTy).Contents (Elt F)),
    nullary main_c_6 (constantI S_ 32 150000#32),
    unary main_c_6 main_v38 (broadcastInDim S150000 ![] bcast_S_S150000 : (⟨S_, .i32⟩ : BufTy).Contents (Elt F) → (⟨S150000, .i32⟩ : BufTy).Contents (Elt F)),
    binary main_v35 main_v38 main_v39 (addi : (⟨S150000, .i32⟩ : BufTy).Contents (Elt F) → (⟨S150000, .i32⟩ : BufTy).Contents (Elt F) → (⟨S150000, .i32⟩ : BufTy).Contents (Elt F)),
    ternary main_v37 main_v39 main_v35 main_v40 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v40 main_v41 (broadcastInDim S150000x1 ![0] bcast_S150000_S150000x1_0 : (⟨S150000, .i32⟩ : BufTy).Contents (Elt F) → (⟨S150000x1, .i32⟩ : BufTy).Contents (Elt F)),
    ternary main_v21 main_v41 main_v33 main_v42 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 52 to 76 of @main. -/
abbrev ops2 : List (HloOp τ sig (Elt F)) :=
  [ unary main_arg2 main_v43 ((extractStridedSlice S1x150000 ![2, 0] · slices_S8x150000_S1x150000_2_0) : (⟨S8x150000, .i32⟩ : BufTy).Contents (Elt F) → (⟨S1x150000, .i32⟩ : BufTy).Contents (Elt F)),
    reshape main_v43 main_v44 rfl shapeCasts_S1x150000_S150000,
    nullary main_c_7 (constantI S_ 32 0#32),
    unary main_c_7 main_v45 (broadcastInDim S150000 ![] bcast_S_S150000 : (⟨S_, .i32⟩ : BufTy).Contents (Elt F) → (⟨S150000, .i32⟩ : BufTy).Contents (Elt F)),
    binary main_v44 main_v45 main_v46 (cmpi .slt : (⟨S150000, .i32⟩ : BufTy).Contents (Elt F) → (⟨S150000, .i32⟩ : BufTy).Contents (Elt F) → (⟨S150000, .i1⟩ : BufTy).Contents (Elt F)),
    nullary main_c_8 (constantI S_ 32 40000#32),
    unary main_c_8 main_v47 (broadcastInDim S150000 ![] bcast_S_S150000 : (⟨S_, .i32⟩ : BufTy).Contents (Elt F) → (⟨S150000, .i32⟩ : BufTy).Contents (Elt F)),
    binary main_v44 main_v47 main_v48 (addi : (⟨S150000, .i32⟩ : BufTy).Contents (Elt F) → (⟨S150000, .i32⟩ : BufTy).Contents (Elt F) → (⟨S150000, .i32⟩ : BufTy).Contents (Elt F)),
    ternary main_v46 main_v48 main_v44 main_v49 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v49 main_v50 (broadcastInDim S150000x1 ![0] bcast_S150000_S150000x1_0 : (⟨S150000, .i32⟩ : BufTy).Contents (Elt F) → (⟨S150000x1, .i32⟩ : BufTy).Contents (Elt F)),
    binary main_arg0 main_v50 main_v51 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v52 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v52 main_v53 rfl shapeCasts_S1x128x128_S128x128,
    binary main_v51 main_v53 main_v54 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v55 ((extractStridedSlice S1x150000 ![2, 0] · slices_S8x150000_S1x150000_2_0) : (⟨S8x150000, .i32⟩ : BufTy).Contents (Elt F) → (⟨S1x150000, .i32⟩ : BufTy).Contents (Elt F)),
    reshape main_v55 main_v56 rfl shapeCasts_S1x150000_S150000,
    nullary main_c_9 (constantI S_ 32 0#32),
    unary main_c_9 main_v57 (broadcastInDim S150000 ![] bcast_S_S150000 : (⟨S_, .i32⟩ : BufTy).Contents (Elt F) → (⟨S150000, .i32⟩ : BufTy).Contents (Elt F)),
    binary main_v56 main_v57 main_v58 (cmpi .slt : (⟨S150000, .i32⟩ : BufTy).Contents (Elt F) → (⟨S150000, .i32⟩ : BufTy).Contents (Elt F) → (⟨S150000, .i1⟩ : BufTy).Contents (Elt F)),
    nullary main_c_10 (constantI S_ 32 150000#32),
    unary main_c_10 main_v59 (broadcastInDim S150000 ![] bcast_S_S150000 : (⟨S_, .i32⟩ : BufTy).Contents (Elt F) → (⟨S150000, .i32⟩ : BufTy).Contents (Elt F)),
    binary main_v56 main_v59 main_v60 (addi : (⟨S150000, .i32⟩ : BufTy).Contents (Elt F) → (⟨S150000, .i32⟩ : BufTy).Contents (Elt F) → (⟨S150000, .i32⟩ : BufTy).Contents (Elt F)),
    ternary main_v58 main_v60 main_v56 main_v61 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v61 main_v62 (broadcastInDim S150000x1 ![0] bcast_S150000_S150000x1_0 : (⟨S150000, .i32⟩ : BufTy).Contents (Elt F) → (⟨S150000x1, .i32⟩ : BufTy).Contents (Elt F)),
    ternary main_v42 main_v62 main_v54 main_v63 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 77 to 101 of @main. -/
abbrev ops3 : List (HloOp τ sig (Elt F)) :=
  [ unary main_arg2 main_v64 ((extractStridedSlice S1x150000 ![3, 0] · slices_S8x150000_S1x150000_3_0) : (⟨S8x150000, .i32⟩ : BufTy).Contents (Elt F) → (⟨S1x150000, .i32⟩ : BufTy).Contents (Elt F)),
    reshape main_v64 main_v65 rfl shapeCasts_S1x150000_S150000,
    nullary main_c_11 (constantI S_ 32 0#32),
    unary main_c_11 main_v66 (broadcastInDim S150000 ![] bcast_S_S150000 : (⟨S_, .i32⟩ : BufTy).Contents (Elt F) → (⟨S150000, .i32⟩ : BufTy).Contents (Elt F)),
    binary main_v65 main_v66 main_v67 (cmpi .slt : (⟨S150000, .i32⟩ : BufTy).Contents (Elt F) → (⟨S150000, .i32⟩ : BufTy).Contents (Elt F) → (⟨S150000, .i1⟩ : BufTy).Contents (Elt F)),
    nullary main_c_12 (constantI S_ 32 40000#32),
    unary main_c_12 main_v68 (broadcastInDim S150000 ![] bcast_S_S150000 : (⟨S_, .i32⟩ : BufTy).Contents (Elt F) → (⟨S150000, .i32⟩ : BufTy).Contents (Elt F)),
    binary main_v65 main_v68 main_v69 (addi : (⟨S150000, .i32⟩ : BufTy).Contents (Elt F) → (⟨S150000, .i32⟩ : BufTy).Contents (Elt F) → (⟨S150000, .i32⟩ : BufTy).Contents (Elt F)),
    ternary main_v67 main_v69 main_v65 main_v70 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v70 main_v71 (broadcastInDim S150000x1 ![0] bcast_S150000_S150000x1_0 : (⟨S150000, .i32⟩ : BufTy).Contents (Elt F) → (⟨S150000x1, .i32⟩ : BufTy).Contents (Elt F)),
    binary main_arg0 main_v71 main_v72 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v73 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v73 main_v74 rfl shapeCasts_S1x128x128_S128x128,
    binary main_v72 main_v74 main_v75 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v76 ((extractStridedSlice S1x150000 ![3, 0] · slices_S8x150000_S1x150000_3_0) : (⟨S8x150000, .i32⟩ : BufTy).Contents (Elt F) → (⟨S1x150000, .i32⟩ : BufTy).Contents (Elt F)),
    reshape main_v76 main_v77 rfl shapeCasts_S1x150000_S150000,
    nullary main_c_13 (constantI S_ 32 0#32),
    unary main_c_13 main_v78 (broadcastInDim S150000 ![] bcast_S_S150000 : (⟨S_, .i32⟩ : BufTy).Contents (Elt F) → (⟨S150000, .i32⟩ : BufTy).Contents (Elt F)),
    binary main_v77 main_v78 main_v79 (cmpi .slt : (⟨S150000, .i32⟩ : BufTy).Contents (Elt F) → (⟨S150000, .i32⟩ : BufTy).Contents (Elt F) → (⟨S150000, .i1⟩ : BufTy).Contents (Elt F)),
    nullary main_c_14 (constantI S_ 32 150000#32),
    unary main_c_14 main_v80 (broadcastInDim S150000 ![] bcast_S_S150000 : (⟨S_, .i32⟩ : BufTy).Contents (Elt F) → (⟨S150000, .i32⟩ : BufTy).Contents (Elt F)),
    binary main_v77 main_v80 main_v81 (addi : (⟨S150000, .i32⟩ : BufTy).Contents (Elt F) → (⟨S150000, .i32⟩ : BufTy).Contents (Elt F) → (⟨S150000, .i32⟩ : BufTy).Contents (Elt F)),
    ternary main_v79 main_v81 main_v77 main_v82 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v82 main_v83 (broadcastInDim S150000x1 ![0] bcast_S150000_S150000x1_0 : (⟨S150000, .i32⟩ : BufTy).Contents (Elt F) → (⟨S150000x1, .i32⟩ : BufTy).Contents (Elt F)),
    ternary main_v63 main_v83 main_v75 main_v84 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 102 to 126 of @main. -/
abbrev ops4 : List (HloOp τ sig (Elt F)) :=
  [ unary main_arg2 main_v85 ((extractStridedSlice S1x150000 ![4, 0] · slices_S8x150000_S1x150000_4_0) : (⟨S8x150000, .i32⟩ : BufTy).Contents (Elt F) → (⟨S1x150000, .i32⟩ : BufTy).Contents (Elt F)),
    reshape main_v85 main_v86 rfl shapeCasts_S1x150000_S150000,
    nullary main_c_15 (constantI S_ 32 0#32),
    unary main_c_15 main_v87 (broadcastInDim S150000 ![] bcast_S_S150000 : (⟨S_, .i32⟩ : BufTy).Contents (Elt F) → (⟨S150000, .i32⟩ : BufTy).Contents (Elt F)),
    binary main_v86 main_v87 main_v88 (cmpi .slt : (⟨S150000, .i32⟩ : BufTy).Contents (Elt F) → (⟨S150000, .i32⟩ : BufTy).Contents (Elt F) → (⟨S150000, .i1⟩ : BufTy).Contents (Elt F)),
    nullary main_c_16 (constantI S_ 32 40000#32),
    unary main_c_16 main_v89 (broadcastInDim S150000 ![] bcast_S_S150000 : (⟨S_, .i32⟩ : BufTy).Contents (Elt F) → (⟨S150000, .i32⟩ : BufTy).Contents (Elt F)),
    binary main_v86 main_v89 main_v90 (addi : (⟨S150000, .i32⟩ : BufTy).Contents (Elt F) → (⟨S150000, .i32⟩ : BufTy).Contents (Elt F) → (⟨S150000, .i32⟩ : BufTy).Contents (Elt F)),
    ternary main_v88 main_v90 main_v86 main_v91 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v91 main_v92 (broadcastInDim S150000x1 ![0] bcast_S150000_S150000x1_0 : (⟨S150000, .i32⟩ : BufTy).Contents (Elt F) → (⟨S150000x1, .i32⟩ : BufTy).Contents (Elt F)),
    binary main_arg0 main_v92 main_v93 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v94 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v94 main_v95 rfl shapeCasts_S1x128x128_S128x128,
    binary main_v93 main_v95 main_v96 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v97 ((extractStridedSlice S1x150000 ![4, 0] · slices_S8x150000_S1x150000_4_0) : (⟨S8x150000, .i32⟩ : BufTy).Contents (Elt F) → (⟨S1x150000, .i32⟩ : BufTy).Contents (Elt F)),
    reshape main_v97 main_v98 rfl shapeCasts_S1x150000_S150000,
    nullary main_c_17 (constantI S_ 32 0#32),
    unary main_c_17 main_v99 (broadcastInDim S150000 ![] bcast_S_S150000 : (⟨S_, .i32⟩ : BufTy).Contents (Elt F) → (⟨S150000, .i32⟩ : BufTy).Contents (Elt F)),
    binary main_v98 main_v99 main_v100 (cmpi .slt : (⟨S150000, .i32⟩ : BufTy).Contents (Elt F) → (⟨S150000, .i32⟩ : BufTy).Contents (Elt F) → (⟨S150000, .i1⟩ : BufTy).Contents (Elt F)),
    nullary main_c_18 (constantI S_ 32 150000#32),
    unary main_c_18 main_v101 (broadcastInDim S150000 ![] bcast_S_S150000 : (⟨S_, .i32⟩ : BufTy).Contents (Elt F) → (⟨S150000, .i32⟩ : BufTy).Contents (Elt F)),
    binary main_v98 main_v101 main_v102 (addi : (⟨S150000, .i32⟩ : BufTy).Contents (Elt F) → (⟨S150000, .i32⟩ : BufTy).Contents (Elt F) → (⟨S150000, .i32⟩ : BufTy).Contents (Elt F)),
    ternary main_v100 main_v102 main_v98 main_v103 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v103 main_v104 (broadcastInDim S150000x1 ![0] bcast_S150000_S150000x1_0 : (⟨S150000, .i32⟩ : BufTy).Contents (Elt F) → (⟨S150000x1, .i32⟩ : BufTy).Contents (Elt F)),
    ternary main_v84 main_v104 main_v96 main_v105 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 127 to 151 of @main. -/
abbrev ops5 : List (HloOp τ sig (Elt F)) :=
  [ unary main_arg2 main_v106 ((extractStridedSlice S1x150000 ![5, 0] · slices_S8x150000_S1x150000_5_0) : (⟨S8x150000, .i32⟩ : BufTy).Contents (Elt F) → (⟨S1x150000, .i32⟩ : BufTy).Contents (Elt F)),
    reshape main_v106 main_v107 rfl shapeCasts_S1x150000_S150000,
    nullary main_c_19 (constantI S_ 32 0#32),
    unary main_c_19 main_v108 (broadcastInDim S150000 ![] bcast_S_S150000 : (⟨S_, .i32⟩ : BufTy).Contents (Elt F) → (⟨S150000, .i32⟩ : BufTy).Contents (Elt F)),
    binary main_v107 main_v108 main_v109 (cmpi .slt : (⟨S150000, .i32⟩ : BufTy).Contents (Elt F) → (⟨S150000, .i32⟩ : BufTy).Contents (Elt F) → (⟨S150000, .i1⟩ : BufTy).Contents (Elt F)),
    nullary main_c_20 (constantI S_ 32 40000#32),
    unary main_c_20 main_v110 (broadcastInDim S150000 ![] bcast_S_S150000 : (⟨S_, .i32⟩ : BufTy).Contents (Elt F) → (⟨S150000, .i32⟩ : BufTy).Contents (Elt F)),
    binary main_v107 main_v110 main_v111 (addi : (⟨S150000, .i32⟩ : BufTy).Contents (Elt F) → (⟨S150000, .i32⟩ : BufTy).Contents (Elt F) → (⟨S150000, .i32⟩ : BufTy).Contents (Elt F)),
    ternary main_v109 main_v111 main_v107 main_v112 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v112 main_v113 (broadcastInDim S150000x1 ![0] bcast_S150000_S150000x1_0 : (⟨S150000, .i32⟩ : BufTy).Contents (Elt F) → (⟨S150000x1, .i32⟩ : BufTy).Contents (Elt F)),
    binary main_arg0 main_v113 main_v114 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v115 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v115 main_v116 rfl shapeCasts_S1x128x128_S128x128,
    binary main_v114 main_v116 main_v117 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v118 ((extractStridedSlice S1x150000 ![5, 0] · slices_S8x150000_S1x150000_5_0) : (⟨S8x150000, .i32⟩ : BufTy).Contents (Elt F) → (⟨S1x150000, .i32⟩ : BufTy).Contents (Elt F)),
    reshape main_v118 main_v119 rfl shapeCasts_S1x150000_S150000,
    nullary main_c_21 (constantI S_ 32 0#32),
    unary main_c_21 main_v120 (broadcastInDim S150000 ![] bcast_S_S150000 : (⟨S_, .i32⟩ : BufTy).Contents (Elt F) → (⟨S150000, .i32⟩ : BufTy).Contents (Elt F)),
    binary main_v119 main_v120 main_v121 (cmpi .slt : (⟨S150000, .i32⟩ : BufTy).Contents (Elt F) → (⟨S150000, .i32⟩ : BufTy).Contents (Elt F) → (⟨S150000, .i1⟩ : BufTy).Contents (Elt F)),
    nullary main_c_22 (constantI S_ 32 150000#32),
    unary main_c_22 main_v122 (broadcastInDim S150000 ![] bcast_S_S150000 : (⟨S_, .i32⟩ : BufTy).Contents (Elt F) → (⟨S150000, .i32⟩ : BufTy).Contents (Elt F)),
    binary main_v119 main_v122 main_v123 (addi : (⟨S150000, .i32⟩ : BufTy).Contents (Elt F) → (⟨S150000, .i32⟩ : BufTy).Contents (Elt F) → (⟨S150000, .i32⟩ : BufTy).Contents (Elt F)),
    ternary main_v121 main_v123 main_v119 main_v124 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v124 main_v125 (broadcastInDim S150000x1 ![0] bcast_S150000_S150000x1_0 : (⟨S150000, .i32⟩ : BufTy).Contents (Elt F) → (⟨S150000x1, .i32⟩ : BufTy).Contents (Elt F)),
    ternary main_v105 main_v125 main_v117 main_v126 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 152 to 176 of @main. -/
abbrev ops6 : List (HloOp τ sig (Elt F)) :=
  [ unary main_arg2 main_v127 ((extractStridedSlice S1x150000 ![6, 0] · slices_S8x150000_S1x150000_6_0) : (⟨S8x150000, .i32⟩ : BufTy).Contents (Elt F) → (⟨S1x150000, .i32⟩ : BufTy).Contents (Elt F)),
    reshape main_v127 main_v128 rfl shapeCasts_S1x150000_S150000,
    nullary main_c_23 (constantI S_ 32 0#32),
    unary main_c_23 main_v129 (broadcastInDim S150000 ![] bcast_S_S150000 : (⟨S_, .i32⟩ : BufTy).Contents (Elt F) → (⟨S150000, .i32⟩ : BufTy).Contents (Elt F)),
    binary main_v128 main_v129 main_v130 (cmpi .slt : (⟨S150000, .i32⟩ : BufTy).Contents (Elt F) → (⟨S150000, .i32⟩ : BufTy).Contents (Elt F) → (⟨S150000, .i1⟩ : BufTy).Contents (Elt F)),
    nullary main_c_24 (constantI S_ 32 40000#32),
    unary main_c_24 main_v131 (broadcastInDim S150000 ![] bcast_S_S150000 : (⟨S_, .i32⟩ : BufTy).Contents (Elt F) → (⟨S150000, .i32⟩ : BufTy).Contents (Elt F)),
    binary main_v128 main_v131 main_v132 (addi : (⟨S150000, .i32⟩ : BufTy).Contents (Elt F) → (⟨S150000, .i32⟩ : BufTy).Contents (Elt F) → (⟨S150000, .i32⟩ : BufTy).Contents (Elt F)),
    ternary main_v130 main_v132 main_v128 main_v133 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v133 main_v134 (broadcastInDim S150000x1 ![0] bcast_S150000_S150000x1_0 : (⟨S150000, .i32⟩ : BufTy).Contents (Elt F) → (⟨S150000x1, .i32⟩ : BufTy).Contents (Elt F)),
    binary main_arg0 main_v134 main_v135 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v136 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v136 main_v137 rfl shapeCasts_S1x128x128_S128x128,
    binary main_v135 main_v137 main_v138 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v139 ((extractStridedSlice S1x150000 ![6, 0] · slices_S8x150000_S1x150000_6_0) : (⟨S8x150000, .i32⟩ : BufTy).Contents (Elt F) → (⟨S1x150000, .i32⟩ : BufTy).Contents (Elt F)),
    reshape main_v139 main_v140 rfl shapeCasts_S1x150000_S150000,
    nullary main_c_25 (constantI S_ 32 0#32),
    unary main_c_25 main_v141 (broadcastInDim S150000 ![] bcast_S_S150000 : (⟨S_, .i32⟩ : BufTy).Contents (Elt F) → (⟨S150000, .i32⟩ : BufTy).Contents (Elt F)),
    binary main_v140 main_v141 main_v142 (cmpi .slt : (⟨S150000, .i32⟩ : BufTy).Contents (Elt F) → (⟨S150000, .i32⟩ : BufTy).Contents (Elt F) → (⟨S150000, .i1⟩ : BufTy).Contents (Elt F)),
    nullary main_c_26 (constantI S_ 32 150000#32),
    unary main_c_26 main_v143 (broadcastInDim S150000 ![] bcast_S_S150000 : (⟨S_, .i32⟩ : BufTy).Contents (Elt F) → (⟨S150000, .i32⟩ : BufTy).Contents (Elt F)),
    binary main_v140 main_v143 main_v144 (addi : (⟨S150000, .i32⟩ : BufTy).Contents (Elt F) → (⟨S150000, .i32⟩ : BufTy).Contents (Elt F) → (⟨S150000, .i32⟩ : BufTy).Contents (Elt F)),
    ternary main_v142 main_v144 main_v140 main_v145 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v145 main_v146 (broadcastInDim S150000x1 ![0] bcast_S150000_S150000x1_0 : (⟨S150000, .i32⟩ : BufTy).Contents (Elt F) → (⟨S150000x1, .i32⟩ : BufTy).Contents (Elt F)),
    ternary main_v126 main_v146 main_v138 main_v147 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 177 to 201 of @main. -/
abbrev ops7 : List (HloOp τ sig (Elt F)) :=
  [ unary main_arg2 main_v148 ((extractStridedSlice S1x150000 ![7, 0] · slices_S8x150000_S1x150000_7_0) : (⟨S8x150000, .i32⟩ : BufTy).Contents (Elt F) → (⟨S1x150000, .i32⟩ : BufTy).Contents (Elt F)),
    reshape main_v148 main_v149 rfl shapeCasts_S1x150000_S150000,
    nullary main_c_27 (constantI S_ 32 0#32),
    unary main_c_27 main_v150 (broadcastInDim S150000 ![] bcast_S_S150000 : (⟨S_, .i32⟩ : BufTy).Contents (Elt F) → (⟨S150000, .i32⟩ : BufTy).Contents (Elt F)),
    binary main_v149 main_v150 main_v151 (cmpi .slt : (⟨S150000, .i32⟩ : BufTy).Contents (Elt F) → (⟨S150000, .i32⟩ : BufTy).Contents (Elt F) → (⟨S150000, .i1⟩ : BufTy).Contents (Elt F)),
    nullary main_c_28 (constantI S_ 32 40000#32),
    unary main_c_28 main_v152 (broadcastInDim S150000 ![] bcast_S_S150000 : (⟨S_, .i32⟩ : BufTy).Contents (Elt F) → (⟨S150000, .i32⟩ : BufTy).Contents (Elt F)),
    binary main_v149 main_v152 main_v153 (addi : (⟨S150000, .i32⟩ : BufTy).Contents (Elt F) → (⟨S150000, .i32⟩ : BufTy).Contents (Elt F) → (⟨S150000, .i32⟩ : BufTy).Contents (Elt F)),
    ternary main_v151 main_v153 main_v149 main_v154 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v154 main_v155 (broadcastInDim S150000x1 ![0] bcast_S150000_S150000x1_0 : (⟨S150000, .i32⟩ : BufTy).Contents (Elt F) → (⟨S150000x1, .i32⟩ : BufTy).Contents (Elt F)),
    binary main_arg0 main_v155 main_v156 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    unary main_arg4 main_v157 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v157 main_v158 rfl shapeCasts_S1x128x128_S128x128,
    binary main_v156 main_v158 main_v159 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg3 main_v160 ((extractStridedSlice S1x150000 ![7, 0] · slices_S8x150000_S1x150000_7_0) : (⟨S8x150000, .i32⟩ : BufTy).Contents (Elt F) → (⟨S1x150000, .i32⟩ : BufTy).Contents (Elt F)),
    reshape main_v160 main_v161 rfl shapeCasts_S1x150000_S150000,
    nullary main_c_29 (constantI S_ 32 0#32),
    unary main_c_29 main_v162 (broadcastInDim S150000 ![] bcast_S_S150000 : (⟨S_, .i32⟩ : BufTy).Contents (Elt F) → (⟨S150000, .i32⟩ : BufTy).Contents (Elt F)),
    binary main_v161 main_v162 main_v163 (cmpi .slt : (⟨S150000, .i32⟩ : BufTy).Contents (Elt F) → (⟨S150000, .i32⟩ : BufTy).Contents (Elt F) → (⟨S150000, .i1⟩ : BufTy).Contents (Elt F)),
    nullary main_c_30 (constantI S_ 32 150000#32),
    unary main_c_30 main_v164 (broadcastInDim S150000 ![] bcast_S_S150000 : (⟨S_, .i32⟩ : BufTy).Contents (Elt F) → (⟨S150000, .i32⟩ : BufTy).Contents (Elt F)),
    binary main_v161 main_v164 main_v165 (addi : (⟨S150000, .i32⟩ : BufTy).Contents (Elt F) → (⟨S150000, .i32⟩ : BufTy).Contents (Elt F) → (⟨S150000, .i32⟩ : BufTy).Contents (Elt F)),
    ternary main_v163 main_v165 main_v161 main_v166 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v166 main_v167 (broadcastInDim S150000x1 ![0] bcast_S150000_S150000x1_0 : (⟨S150000, .i32⟩ : BufTy).Contents (Elt F) → (⟨S150000x1, .i32⟩ : BufTy).Contents (Elt F)),
    ternary main_v147 main_v167 main_v159 main_v168 ((fun x i u => Host.scatterAdd scatter_S150000x128_S150000x1_S150000x128_1_0_0_1 x i u) : (⟨S150000x128, .f32⟩ : BufTy).Contents (Elt F) → (⟨S150000x1, .i32⟩ : BufTy).Contents (Elt F) → (⟨S150000x128, .f32⟩ : BufTy).Contents (Elt F) → (⟨S150000x128, .f32⟩ : BufTy).Contents (Elt F)) ]

/-- Operations 202 to 234 of @main. -/
abbrev ops8 : List (HloOp τ sig (Elt F)) :=
  [ nullary main_cst_31 (constant S_ .f32 0x00000000#32),
    binary main_v168 main_cst_31 main_v169 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    nullary main_cst_32 (constant S_ .f32 0x48127C00#32),
    unary main_cst_32 main_v170 (broadcastInDim S128 ![] bcast_S_S128 : (⟨S_, .f32⟩ : BufTy).Contents (Elt F) → (⟨S128, .f32⟩ : BufTy).Contents (Elt F)),
    binary main_v169 main_v170 main_v171 (Host.divf : (⟨S128, .f32⟩ : BufTy).Contents (Elt F) → (⟨S128, .f32⟩ : BufTy).Contents (Elt F) → (⟨S128, .f32⟩ : BufTy).Contents (Elt F)),
    unary main_v171 main_v172 (broadcastInDim S1x128 ![1] bcast_S128_S1x128_1 : (⟨S128, .f32⟩ : BufTy).Contents (Elt F) → (⟨S1x128, .f32⟩ : BufTy).Contents (Elt F)),
    unary main_v172 main_v173 (broadcastInDim S150000x128 ![0, 1] bcast_S1x128_S150000x128_0_1 : (⟨S1x128, .f32⟩ : BufTy).Contents (Elt F) → (⟨S150000x128, .f32⟩ : BufTy).Contents (Elt F)),
    binary main_v168 main_v173 main_v174 (subf : (⟨S150000x128, .f32⟩ : BufTy).Contents (Elt F) → (⟨S150000x128, .f32⟩ : BufTy).Contents (Elt F) → (⟨S150000x128, .f32⟩ : BufTy).Contents (Elt F)),
    binary main_v174 main_v174 main_v175 (mulf : (⟨S150000x128, .f32⟩ : BufTy).Contents (Elt F) → (⟨S150000x128, .f32⟩ : BufTy).Contents (Elt F) → (⟨S150000x128, .f32⟩ : BufTy).Contents (Elt F)),
    nullary main_cst_33 (constant S_ .f32 0x00000000#32),
    binary main_v175 main_cst_33 main_v176 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    nullary main_cst_34 (constant S_ .f32 0x48127C00#32),
    unary main_cst_34 main_v177 (broadcastInDim S128 ![] bcast_S_S128 : (⟨S_, .f32⟩ : BufTy).Contents (Elt F) → (⟨S128, .f32⟩ : BufTy).Contents (Elt F)),
    binary main_v176 main_v177 main_v178 (Host.divf : (⟨S128, .f32⟩ : BufTy).Contents (Elt F) → (⟨S128, .f32⟩ : BufTy).Contents (Elt F) → (⟨S128, .f32⟩ : BufTy).Contents (Elt F)),
    unary main_v171 main_v179 (broadcastInDim S1x128 ![1] bcast_S128_S1x128_1 : (⟨S128, .f32⟩ : BufTy).Contents (Elt F) → (⟨S1x128, .f32⟩ : BufTy).Contents (Elt F)),
    unary main_v179 main_v180 (broadcastInDim S150000x128 ![0, 1] bcast_S1x128_S150000x128_0_1 : (⟨S1x128, .f32⟩ : BufTy).Contents (Elt F) → (⟨S150000x128, .f32⟩ : BufTy).Contents (Elt F)),
    binary main_v168 main_v180 main_v181 (subf : (⟨S150000x128, .f32⟩ : BufTy).Contents (Elt F) → (⟨S150000x128, .f32⟩ : BufTy).Contents (Elt F) → (⟨S150000x128, .f32⟩ : BufTy).Contents (Elt F)),
    nullary main_cst_35 (constant S_ .f32 0x3727C5AC#32),
    unary main_cst_35 main_v182 (broadcastInDim S128 ![] bcast_S_S128 : (⟨S_, .f32⟩ : BufTy).Contents (Elt F) → (⟨S128, .f32⟩ : BufTy).Contents (Elt F)),
    binary main_v178 main_v182 main_v183 (addf : (⟨S128, .f32⟩ : BufTy).Contents (Elt F) → (⟨S128, .f32⟩ : BufTy).Contents (Elt F) → (⟨S128, .f32⟩ : BufTy).Contents (Elt F)),
    unary main_v183 main_v184 (Host.rsqrt : (⟨S128, .f32⟩ : BufTy).Contents (Elt F) → (⟨S128, .f32⟩ : BufTy).Contents (Elt F)),
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S150000x128 ![0, 1] bcast_S1x128_S150000x128_0_1 : (⟨S1x128, .f32⟩ : BufTy).Contents (Elt F) → (⟨S150000x128, .f32⟩ : BufTy).Contents (Elt F)),
    binary main_v181 main_v186 main_v187 (mulf : (⟨S150000x128, .f32⟩ : BufTy).Contents (Elt F) → (⟨S150000x128, .f32⟩ : BufTy).Contents (Elt F) → (⟨S150000x128, .f32⟩ : BufTy).Contents (Elt F)),
    unary main_arg5 main_v188 (broadcastInDim S1x128 ![1] bcast_S128_S1x128_1 : (⟨S128, .f32⟩ : BufTy).Contents (Elt F) → (⟨S1x128, .f32⟩ : BufTy).Contents (Elt F)),
    unary main_v188 main_v189 (broadcastInDim S150000x128 ![0, 1] bcast_S1x128_S150000x128_0_1 : (⟨S1x128, .f32⟩ : BufTy).Contents (Elt F) → (⟨S150000x128, .f32⟩ : BufTy).Contents (Elt F)),
    binary main_v187 main_v189 main_v190 (mulf : (⟨S150000x128, .f32⟩ : BufTy).Contents (Elt F) → (⟨S150000x128, .f32⟩ : BufTy).Contents (Elt F) → (⟨S150000x128, .f32⟩ : BufTy).Contents (Elt F)),
    unary main_arg6 main_v191 (broadcastInDim S1x128 ![1] bcast_S128_S1x128_1 : (⟨S128, .f32⟩ : BufTy).Contents (Elt F) → (⟨S1x128, .f32⟩ : BufTy).Contents (Elt F)),
    unary main_v191 main_v192 (broadcastInDim S150000x128 ![0, 1] bcast_S1x128_S150000x128_0_1 : (⟨S1x128, .f32⟩ : BufTy).Contents (Elt F) → (⟨S150000x128, .f32⟩ : BufTy).Contents (Elt F)),
    binary main_v190 main_v192 main_v193 (addf : (⟨S150000x128, .f32⟩ : BufTy).Contents (Elt F) → (⟨S150000x128, .f32⟩ : BufTy).Contents (Elt F) → (⟨S150000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S150000x128, .f32⟩) main_call0_v0) (broadcastInDim S150000x128 ![] bcast_S_S150000x128),
    TRef.binary (TRef.of (T := ⟨S150000x128, .f32⟩) main_v193) (TRef.of (T := ⟨S150000x128, .f32⟩) main_call0_v0) (TRef.of (T := ⟨S150000x128, .f32⟩) main_v194) maximumf ]

/-- Operations 235 to 272 of @main. -/
abbrev ops9 : List (HloOp τ sig (Elt F)) :=
  [ binary main_v194 main_arg1 main_v195 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    binary main_v195 main_arg7 main_v196 ((fun l r => Host.dotGeneral dot_S150000x256_S256x128_S150000x128_1_0_0_1_n_n none l r) : (⟨S150000x256, .f32⟩ : BufTy).Contents (Elt F) → (⟨S256x128, .f32⟩ : BufTy).Contents (Elt F) → (⟨S150000x128, .f32⟩ : BufTy).Contents (Elt F)),
    unary main_arg8 main_v197 (broadcastInDim S1x128 ![1] bcast_S128_S1x128_1 : (⟨S128, .f32⟩ : BufTy).Contents (Elt F) → (⟨S1x128, .f32⟩ : BufTy).Contents (Elt F)),
    unary main_v197 main_v198 (broadcastInDim S150000x128 ![0, 1] bcast_S1x128_S150000x128_0_1 : (⟨S1x128, .f32⟩ : BufTy).Contents (Elt F) → (⟨S150000x128, .f32⟩ : BufTy).Contents (Elt F)),
    binary main_v196 main_v198 main_v199 (addf : (⟨S150000x128, .f32⟩ : BufTy).Contents (Elt F) → (⟨S150000x128, .f32⟩ : BufTy).Contents (Elt F) → (⟨S150000x128, .f32⟩ : BufTy).Contents (Elt F)),
    nullary main_cst_36 (constant S_ .f32 0x00000000#32),
    binary main_v199 main_cst_36 main_v200 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    nullary main_cst_37 (constant S_ .f32 0x48127C00#32),
    unary main_cst_37 main_v201 (broadcastInDim S128 ![] bcast_S_S128 : (⟨S_, .f32⟩ : BufTy).Contents (Elt F) → (⟨S128, .f32⟩ : BufTy).Contents (Elt F)),
    binary main_v200 main_v201 main_v202 (Host.divf : (⟨S128, .f32⟩ : BufTy).Contents (Elt F) → (⟨S128, .f32⟩ : BufTy).Contents (Elt F) → (⟨S128, .f32⟩ : BufTy).Contents (Elt F)),
    unary main_v202 main_v203 (broadcastInDim S1x128 ![1] bcast_S128_S1x128_1 : (⟨S128, .f32⟩ : BufTy).Contents (Elt F) → (⟨S1x128, .f32⟩ : BufTy).Contents (Elt F)),
    unary main_v203 main_v204 (broadcastInDim S150000x128 ![0, 1] bcast_S1x128_S150000x128_0_1 : (⟨S1x128, .f32⟩ : BufTy).Contents (Elt F) → (⟨S150000x128, .f32⟩ : BufTy).Contents (Elt F)),
    binary main_v199 main_v204 main_v205 (subf : (⟨S150000x128, .f32⟩ : BufTy).Contents (Elt F) → (⟨S150000x128, .f32⟩ : BufTy).Contents (Elt F) → (⟨S150000x128, .f32⟩ : BufTy).Contents (Elt F)),
    binary main_v205 main_v205 main_v206 (mulf : (⟨S150000x128, .f32⟩ : BufTy).Contents (Elt F) → (⟨S150000x128, .f32⟩ : BufTy).Contents (Elt F) → (⟨S150000x128, .f32⟩ : BufTy).Contents (Elt F)),
    nullary main_cst_38 (constant S_ .f32 0x00000000#32),
    binary main_v206 main_cst_38 main_v207 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    nullary main_cst_39 (constant S_ .f32 0x48127C00#32),
    unary main_cst_39 main_v208 (broadcastInDim S128 ![] bcast_S_S128 : (⟨S_, .f32⟩ : BufTy).Contents (Elt F) → (⟨S128, .f32⟩ : BufTy).Contents (Elt F)),
    binary main_v207 main_v208 main_v209 (Host.divf : (⟨S128, .f32⟩ : BufTy).Contents (Elt F) → (⟨S128, .f32⟩ : BufTy).Contents (Elt F) → (⟨S128, .f32⟩ : BufTy).Contents (Elt F)),
    unary main_v202 main_v210 (broadcastInDim S1x128 ![1] bcast_S128_S1x128_1 : (⟨S128, .f32⟩ : BufTy).Contents (Elt F) → (⟨S1x128, .f32⟩ : BufTy).Contents (Elt F)),
    unary main_v210 main_v211 (broadcastInDim S150000x128 ![0, 1] bcast_S1x128_S150000x128_0_1 : (⟨S1x128, .f32⟩ : BufTy).Contents (Elt F) → (⟨S150000x128, .f32⟩ : BufTy).Contents (Elt F)),
    binary main_v199 main_v211 main_v212 (subf : (⟨S150000x128, .f32⟩ : BufTy).Contents (Elt F) → (⟨S150000x128, .f32⟩ : BufTy).Contents (Elt F) → (⟨S150000x128, .f32⟩ : BufTy).Contents (Elt F)),
    nullary main_cst_40 (constant S_ .f32 0x3727C5AC#32),
    unary main_cst_40 main_v213 (broadcastInDim S128 ![] bcast_S_S128 : (⟨S_, .f32⟩ : BufTy).Contents (Elt F) → (⟨S128, .f32⟩ : BufTy).Contents (Elt F)),
    binary main_v209 main_v213 main_v214 (addf : (⟨S128, .f32⟩ : BufTy).Contents (Elt F) → (⟨S128, .f32⟩ : BufTy).Contents (Elt F) → (⟨S128, .f32⟩ : BufTy).Contents (Elt F)),
    unary main_v214 main_v215 (Host.rsqrt : (⟨S128, .f32⟩ : BufTy).Contents (Elt F) → (⟨S128, .f32⟩ : BufTy).Contents (Elt F)),
    unary main_v215 main_v216 (broadcastInDim S1x128 ![1] bcast_S128_S1x128_1 : (⟨S128, .f32⟩ : BufTy).Contents (Elt F) → (⟨S1x128, .f32⟩ : BufTy).Contents (Elt F)),
    unary main_v216 main_v217 (broadcastInDim S150000x128 ![0, 1] bcast_S1x128_S150000x128_0_1 : (⟨S1x128, .f32⟩ : BufTy).Contents (Elt F) → (⟨S150000x128, .f32⟩ : BufTy).Contents (Elt F)),
    binary main_v212 main_v217 main_v218 (mulf : (⟨S150000x128, .f32⟩ : BufTy).Contents (Elt F) → (⟨S150000x128, .f32⟩ : BufTy).Contents (Elt F) → (⟨S150000x128, .f32⟩ : BufTy).Contents (Elt F)),
    unary main_arg9 main_v219 (broadcastInDim S1x128 ![1] bcast_S128_S1x128_1 : (⟨S128, .f32⟩ : BufTy).Contents (Elt F) → (⟨S1x128, .f32⟩ : BufTy).Contents (Elt F)),
    unary main_v219 main_v220 (broadcastInDim S150000x128 ![0, 1] bcast_S1x128_S150000x128_0_1 : (⟨S1x128, .f32⟩ : BufTy).Contents (Elt F) → (⟨S150000x128, .f32⟩ : BufTy).Contents (Elt F)),
    binary main_v218 main_v220 main_v221 (mulf : (⟨S150000x128, .f32⟩ : BufTy).Contents (Elt F) → (⟨S150000x128, .f32⟩ : BufTy).Contents (Elt F) → (⟨S150000x128, .f32⟩ : BufTy).Contents (Elt F)),
    unary main_arg10 main_v222 (broadcastInDim S1x128 ![1] bcast_S128_S1x128_1 : (⟨S128, .f32⟩ : BufTy).Contents (Elt F) → (⟨S1x128, .f32⟩ : BufTy).Contents (Elt F)),
    unary main_v222 main_v223 (broadcastInDim S150000x128 ![0, 1] bcast_S1x128_S150000x128_0_1 : (⟨S1x128, .f32⟩ : BufTy).Contents (Elt F) → (⟨S150000x128, .f32⟩ : BufTy).Contents (Elt F)),
    binary main_v221 main_v223 main_v224 (addf : (⟨S150000x128, .f32⟩ : BufTy).Contents (Elt F) → (⟨S150000x128, .f32⟩ : BufTy).Contents (Elt F) → (⟨S150000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x128, .f32⟩) main_call1_v0) (broadcastInDim S150000x128 ![] bcast_S_S150000x128),
    TRef.binary (TRef.of (T := ⟨S150000x128, .f32⟩) main_v224) (TRef.of (T := ⟨S150000x128, .f32⟩) main_call1_v0) (TRef.of (T := ⟨S150000x128, .f32⟩) main_v225) maximumf ]

/-- Operations 273 to 310 of @main. -/
abbrev ops10 : List (HloOp τ sig (Elt F)) :=
  [ binary main_v225 main_arg11 main_v226 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg12 main_v227 (broadcastInDim S1x128 ![1] bcast_S128_S1x128_1 : (⟨S128, .f32⟩ : BufTy).Contents (Elt F) → (⟨S1x128, .f32⟩ : BufTy).Contents (Elt F)),
    unary main_v227 main_v228 (broadcastInDim S150000x128 ![0, 1] bcast_S1x128_S150000x128_0_1 : (⟨S1x128, .f32⟩ : BufTy).Contents (Elt F) → (⟨S150000x128, .f32⟩ : BufTy).Contents (Elt F)),
    binary main_v226 main_v228 main_v229 (addf : (⟨S150000x128, .f32⟩ : BufTy).Contents (Elt F) → (⟨S150000x128, .f32⟩ : BufTy).Contents (Elt F) → (⟨S150000x128, .f32⟩ : BufTy).Contents (Elt F)),
    nullary main_cst_41 (constant S_ .f32 0x00000000#32),
    binary main_v229 main_cst_41 main_v230 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    nullary main_cst_42 (constant S_ .f32 0x48127C00#32),
    unary main_cst_42 main_v231 (broadcastInDim S128 ![] bcast_S_S128 : (⟨S_, .f32⟩ : BufTy).Contents (Elt F) → (⟨S128, .f32⟩ : BufTy).Contents (Elt F)),
    binary main_v230 main_v231 main_v232 (Host.divf : (⟨S128, .f32⟩ : BufTy).Contents (Elt F) → (⟨S128, .f32⟩ : BufTy).Contents (Elt F) → (⟨S128, .f32⟩ : BufTy).Contents (Elt F)),
    unary main_v232 main_v233 (broadcastInDim S1x128 ![1] bcast_S128_S1x128_1 : (⟨S128, .f32⟩ : BufTy).Contents (Elt F) → (⟨S1x128, .f32⟩ : BufTy).Contents (Elt F)),
    unary main_v233 main_v234 (broadcastInDim S150000x128 ![0, 1] bcast_S1x128_S150000x128_0_1 : (⟨S1x128, .f32⟩ : BufTy).Contents (Elt F) → (⟨S150000x128, .f32⟩ : BufTy).Contents (Elt F)),
    binary main_v229 main_v234 main_v235 (subf : (⟨S150000x128, .f32⟩ : BufTy).Contents (Elt F) → (⟨S150000x128, .f32⟩ : BufTy).Contents (Elt F) → (⟨S150000x128, .f32⟩ : BufTy).Contents (Elt F)),
    binary main_v235 main_v235 main_v236 (mulf : (⟨S150000x128, .f32⟩ : BufTy).Contents (Elt F) → (⟨S150000x128, .f32⟩ : BufTy).Contents (Elt F) → (⟨S150000x128, .f32⟩ : BufTy).Contents (Elt F)),
    nullary main_cst_43 (constant S_ .f32 0x00000000#32),
    binary main_v236 main_cst_43 main_v237 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    nullary main_cst_44 (constant S_ .f32 0x48127C00#32),
    unary main_cst_44 main_v238 (broadcastInDim S128 ![] bcast_S_S128 : (⟨S_, .f32⟩ : BufTy).Contents (Elt F) → (⟨S128, .f32⟩ : BufTy).Contents (Elt F)),
    binary main_v237 main_v238 main_v239 (Host.divf : (⟨S128, .f32⟩ : BufTy).Contents (Elt F) → (⟨S128, .f32⟩ : BufTy).Contents (Elt F) → (⟨S128, .f32⟩ : BufTy).Contents (Elt F)),
    unary main_v232 main_v240 (broadcastInDim S1x128 ![1] bcast_S128_S1x128_1 : (⟨S128, .f32⟩ : BufTy).Contents (Elt F) → (⟨S1x128, .f32⟩ : BufTy).Contents (Elt F)),
    unary main_v240 main_v241 (broadcastInDim S150000x128 ![0, 1] bcast_S1x128_S150000x128_0_1 : (⟨S1x128, .f32⟩ : BufTy).Contents (Elt F) → (⟨S150000x128, .f32⟩ : BufTy).Contents (Elt F)),
    binary main_v229 main_v241 main_v242 (subf : (⟨S150000x128, .f32⟩ : BufTy).Contents (Elt F) → (⟨S150000x128, .f32⟩ : BufTy).Contents (Elt F) → (⟨S150000x128, .f32⟩ : BufTy).Contents (Elt F)),
    nullary main_cst_45 (constant S_ .f32 0x3727C5AC#32),
    unary main_cst_45 main_v243 (broadcastInDim S128 ![] bcast_S_S128 : (⟨S_, .f32⟩ : BufTy).Contents (Elt F) → (⟨S128, .f32⟩ : BufTy).Contents (Elt F)),
    binary main_v239 main_v243 main_v244 (addf : (⟨S128, .f32⟩ : BufTy).Contents (Elt F) → (⟨S128, .f32⟩ : BufTy).Contents (Elt F) → (⟨S128, .f32⟩ : BufTy).Contents (Elt F)),
    unary main_v244 main_v245 (Host.rsqrt : (⟨S128, .f32⟩ : BufTy).Contents (Elt F) → (⟨S128, .f32⟩ : BufTy).Contents (Elt F)),
    unary main_v245 main_v246 (broadcastInDim S1x128 ![1] bcast_S128_S1x128_1 : (⟨S128, .f32⟩ : BufTy).Contents (Elt F) → (⟨S1x128, .f32⟩ : BufTy).Contents (Elt F)),
    unary main_v246 main_v247 (broadcastInDim S150000x128 ![0, 1] bcast_S1x128_S150000x128_0_1 : (⟨S1x128, .f32⟩ : BufTy).Contents (Elt F) → (⟨S150000x128, .f32⟩ : BufTy).Contents (Elt F)),
    binary main_v242 main_v247 main_v248 (mulf : (⟨S150000x128, .f32⟩ : BufTy).Contents (Elt F) → (⟨S150000x128, .f32⟩ : BufTy).Contents (Elt F) → (⟨S150000x128, .f32⟩ : BufTy).Contents (Elt F)),
    unary main_arg13 main_v249 (broadcastInDim S1x128 ![1] bcast_S128_S1x128_1 : (⟨S128, .f32⟩ : BufTy).Contents (Elt F) → (⟨S1x128, .f32⟩ : BufTy).Contents (Elt F)),
    unary main_v249 main_v250 (broadcastInDim S150000x128 ![0, 1] bcast_S1x128_S150000x128_0_1 : (⟨S1x128, .f32⟩ : BufTy).Contents (Elt F) → (⟨S150000x128, .f32⟩ : BufTy).Contents (Elt F)),
    binary main_v248 main_v250 main_v251 (mulf : (⟨S150000x128, .f32⟩ : BufTy).Contents (Elt F) → (⟨S150000x128, .f32⟩ : BufTy).Contents (Elt F) → (⟨S150000x128, .f32⟩ : BufTy).Contents (Elt F)),
    unary main_arg14 main_v252 (broadcastInDim S1x128 ![1] bcast_S128_S1x128_1 : (⟨S128, .f32⟩ : BufTy).Contents (Elt F) → (⟨S1x128, .f32⟩ : BufTy).Contents (Elt F)),
    unary main_v252 main_v253 (broadcastInDim S150000x128 ![0, 1] bcast_S1x128_S150000x128_0_1 : (⟨S1x128, .f32⟩ : BufTy).Contents (Elt F) → (⟨S150000x128, .f32⟩ : BufTy).Contents (Elt F)),
    binary main_v251 main_v253 main_v254 (addf : (⟨S150000x128, .f32⟩ : BufTy).Contents (Elt F) → (⟨S150000x128, .f32⟩ : BufTy).Contents (Elt F) → (⟨S150000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S150000x128, .f32⟩) main_call2_v0) (broadcastInDim S150000x128 ![] bcast_S_S150000x128),
    TRef.binary (TRef.of (T := ⟨S150000x128, .f32⟩) main_v254) (TRef.of (T := ⟨S150000x128, .f32⟩) main_call2_v0) (TRef.of (T := ⟨S150000x128, .f32⟩) main_v255) maximumf,
    binary main_v255 main_v194 main_v256 (addf : (⟨S150000x128, .f32⟩ : BufTy).Contents (Elt F) → (⟨S150000x128, .f32⟩ : BufTy).Contents (Elt F) → (⟨S150000x128, .f32⟩ : BufTy).Contents (Elt F)) ]

end Cert.ReferenceIdeal.HandRun

end
-- ==== Proof.RefRunA.lean ====
import proofs.«425338_j83640193122774_2_alg».proof.Proof.RefOps
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops0 ++ (ops1 ++ (ops2 ++ (ops3 ++ (ops4 ++ (ops5 ++ (ops6 ++ (ops7 ++ (ops8 ++ (ops9 ++ ops10)))))))))

abbrev fold (W : Valuation τ sig (Elt F)) : Valuation τ sig (Elt F) :=
  after ops10 (after ops9 (after ops8 (after ops7 (after ops6 (after ops5 (after ops4 (after ops3 (after ops2 (after ops1 (after ops0 (W)))))))))))

namespace A

abbrev args : List (Ref sig .tc) :=
  [main_arg0, main_arg1, main_arg2, main_arg3, main_arg4, main_arg5, main_arg6, main_arg7, main_arg8, main_arg9, main_arg10, main_arg11, main_arg12, main_arg13, main_arg14]

def Good (op : HloOp τ sig (Elt F)) : Prop :=
  op.bufs ⊆ tcRefs τ sig ∧ op.fresh = ∅ ∧ ∀ b ∈ args, (b : DevRef τ sig) ∉ op.writes

-- An operation whose one written buffer `y` is no argument writes no argument.
theorem good {op : HloOp τ sig (Elt F)} {y : Ref sig .tc} (hs : op.bufs ⊆ tcRefs τ sig) (hf : op.fresh = ∅)
    (hw : op.writes = {(y : DevRef τ sig)}) (hy : y ∉ args) : Good op :=
  ⟨hs, hf, fun b hb h => hy (Proc.devRef_injective _ (Finset.mem_singleton.mp (hw ▸ h)) ▸ hb)⟩

theorem ok : ([ops0, ops1, ops2, ops3, ops4, ops5, ops6, ops7, ops8, ops9, ops10] : List (List (HloOp τ sig (Elt F)))).Forall
    (List.Forall Good) := by
  repeat' first
    | exact good (by simp only [nullary_bufs_sub, unary_bufs_sub, binary_bufs_sub, ternary_bufs_sub, reshape_bufs_sub]) rfl rfl (by decide)
    | refine ⟨?_, ?_⟩

theorem ok_ops : (ops : List (HloOp τ sig (Elt F))).Forall Good := by
  simp only [List.forall_append]; exact ok

-- Both sides unfold to the same sequence of operations.
theorem main_eq (c : Dev nD) : main (F := F) c = seq ops := rfl

theorem after_ops (V : Valuation τ sig (Elt F)) : after ops V = fold V := by
  simp only [after_append]

end A

theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = fold (launchContents m d) (Proc.devRef .tc b) :=
  (θ_run defs _ _).mono
    (fun _ h d b => (h d b).trans (congrFun (A.after_ops _) _))
    (run_seq (by decide) (by decide) defs main (fun _ => ops) A.main_eq
      (fun _ => A.ok_ops.imp fun _ h => h.1) m ρ
      (hfresh := fun _ op h => (List.forall_iff_forall_mem.mp A.ok_ops op h).2.1))

end Cert.ReferenceIdeal.HandRun

end
-- ==== Proof.RefStages.lean ====
import proofs.«425338_j83640193122774_2_alg».proof.Proof.Gen.ReferenceIdeal
import proofs.«425338_j83640193122774_2_alg».proof.Proof.Spec

noncomputable section

namespace Cert.ReferenceIdeal.RefVal

open Idealize.ShloMosaic Idealize.ShloMosaic.ValueIdx
open Cert.ReferenceIdeal Cert.ReferenceIdeal.Gen Cert.Spec

namespace Conv

variable (n : BitVec 32) (k : Fin 8) (x0 : Mat 40000 128) (x x2 x3 : IMat 8 150000) (x4 : Ten 8 128 128)
  (prev : Mat 150000 128)

theorem sl2 : S8x150000.Slices ![k.val, 0] S1x150000 := by revert k; decide
theorem sl3 : S8x128x128.Slices ![k.val, 0, 0] S1x128x128 := by revert k; decide

-- Row k of a table of words, as a vector.
def rowOf : IVec S150000 32 :=
  shapeCast S150000 (extractStridedSlice S1x150000 ![k.val, 0] x (sl2 k)) shapeCasts_S1x150000_S150000

-- Row k of a table of words as a column, each negative word moved up by n.
def wrapCol : IMat 150000 1 :=
  broadcastInDim S150000x1 ![0] bcast_S150000_S150000x1_0
    (select (cmpi .slt (rowOf k x) (broadcastInDim S150000 ![] bcast_S_S150000 (constantI S_ 32 0#32)))
      (addi (rowOf k x) (broadcastInDim S150000 ![] bcast_S_S150000 (constantI S_ 32 n))) (rowOf k x))

-- Offset k's weight, as a matrix.
def wOf : Mat 128 128 :=
  shapeCast S128x128 (extractStridedSlice S1x128x128 ![k.val, 0, 0] x4 (sl3 k)) shapeCasts_S1x128x128_S128x128

-- One round: the coarse rows offset k's input words select, through its weight, added into the fine rows its output words name.
def rnd : Mat 150000 128 :=
  Host.scatterAdd (F := Ideal) (φ := .f32) scatter_S150000x128_S150000x1_S150000x128_1_0_0_1 prev (wrapCol 150000#32 k x3)
    (Host.dotGeneral (F := Ideal) (φ₁ := .f32) (φ₂ := .f32) dot_S150000x128_S128x128_S150000x128_1_0_0_1_n_n none
      (Host.gather gather_S40000x128_S150000x1_S150000x128_1_0_n_n_0_1_1128 x0 (wrapCol 40000#32 k x2)) (wOf k x4))

end Conv

namespace Up

-- A row spread over the fine rows.
def spread (v : Row 128) : Mat 150000 128 :=
  broadcastInDim S150000x128 ![0, 1] bcast_S1x128_S150000x128_0_1 (broadcastInDim S1x128 ![1] bcast_S128_S1x128_1 v)

-- The row whose every entry is the f32 word w.
def splat (w : BitVec 32) : Row 128 := broadcastInDim S128 ![] bcast_S_S128 (constant (F := Ideal) S_ .f32 w)

def zeroMat : Mat 150000 128 :=
  broadcastInDim S150000x128 ![] bcast_S_S150000x128 (constant (F := Ideal) S_ .f32 0x00000000#32)

def colSum (y : Mat 150000 128) : Row 128 :=
  Host.reduceAdd (F := Ideal) (s := S150000x128) (φ := .f32) y (constant (F := Ideal) S_ .f32 0x00000000#32)
    reducesTo_S150000x128_S128_d0 h_S_

def colMean (y : Mat 150000 128) : Row 128 :=
  Host.divf (F := Ideal) (s := S128) (φ := .f32) (colSum y) (splat 0x48127C00#32)

def dev (h : Mat 150000 128) : Mat 150000 128 := subf (F := Ideal) (s := S150000x128) (φ := .f32) h (spread (colMean h))

def invDev (h : Mat 150000 128) : Row 128 :=
  Host.rsqrt (F := Ideal) (s := S128) (φ := .f32)
    (addf (F := Ideal) (s := S128) (φ := .f32)
      (colMean (mulf (F := Ideal) (s := S150000x128) (φ := .f32) (dev h) (dev h))) (splat 0x3727C5AC#32))

-- One normalisation: the deviations times the guarded inverse deviation, scaled, shifted and clipped at zero.
def stage (h : Mat 150000 128) (g b : Row 128) : Mat 150000 128 :=
  maximumf (F := Ideal) (s := S150000x128) (φ := .f32)
    (addf (F := Ideal) (s := S150000x128) (φ := .f32)
      (mulf (F := Ideal) (s := S150000x128) (φ := .f32)
        (mulf (F := Ideal) (s := S150000x128) (φ := .f32) (dev h) (spread (invDev h)))
        (spread g))
      (spread b))
    zeroMat

end Up

open Conv Up

variable (x0 : Mat 40000 128) (x1 : Mat 150000 128) (x2 x3 : IMat 8 150000) (x4 : Ten 8 128 128) (x5 x6 : Row 128)
  (x7 : Mat 256 128) (x8 x9 x10 : Row 128) (x11 : Mat 128 128) (x12 x13 x14 : Row 128)

-- The eight rounds onto the zero array.
def conv8 : Mat 150000 128 :=
  rnd 7 x0 x2 x3 x4 (rnd 6 x0 x2 x3 x4 (rnd 5 x0 x2 x3 x4 (rnd 4 x0 x2 x3 x4 (rnd 3 x0 x2 x3 x4 (rnd 2 x0 x2 x3 x4
    (rnd 1 x0 x2 x3 x4 (rnd 0 x0 x2 x3 x4 zeroMat)))))))

def joined (u s : Mat 150000 128) : Mat 150000 256 :=
  concatenate S150000x256 1 [⟨S150000x128, u⟩, ⟨S150000x128, s⟩] concatenates_S150000x128_S150000x128_S150000x256_d1

-- The first affine map, on the two arrays joined along the columns.
def aff1 (u s : Mat 150000 128) (W : Mat 256 128) (b : Row 128) : Mat 150000 128 :=
  addf (F := Ideal) (s := S150000x128) (φ := .f32)
    (Host.dotGeneral (F := Ideal) (φ₁ := .f32) (φ₂ := .f32) dot_S150000x256_S256x128_S150000x128_1_0_0_1_n_n none (joined u s) W)
    (spread b)

def aff2 (h : Mat 150000 128) (W : Mat 128 128) (b : Row 128) : Mat 150000 128 :=
  addf (F := Ideal) (s := S150000x128) (φ := .f32)
    (Host.dotGeneral (F := Ideal) (φ₁ := .f32) (φ₂ := .f32) dot_S150000x128_S128x128_S150000x128_1_0_0_1_n_n none h W)
    (spread b)

def upS : Mat 150000 128 := stage (conv8 x0 x2 x3 x4) x5 x6
def h1S : Mat 150000 128 := aff1 (upS x0 x2 x3 x4 x5 x6) x1 x7 x8
def h1nS : Mat 150000 128 := stage (h1S x0 x1 x2 x3 x4 x5 x6 x7 x8) x9 x10
def h2S : Mat 150000 128 := aff2 (h1nS x0 x1 x2 x3 x4 x5 x6 x7 x8 x9 x10) x11 x12

-- The reference's result as its operations spell it.
def outS : Mat 150000 128 :=
  addf (F := Ideal) (s := S150000x128) (φ := .f32) (stage (h2S x0 x1 x2 x3 x4 x5 x6 x7 x8 x9 x10 x11 x12) x13 x14)
    (upS x0 x2 x3 x4 x5 x6)

end Cert.ReferenceIdeal.RefVal

end
-- ==== Proof.RefRunB.lean ====
import proofs.«425338_j83640193122774_2_alg».proof.Proof.RefRunA
import proofs.«425338_j83640193122774_2_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

abbrev foldB (W : Valuation τ sig (Elt Ideal)) : Valuation τ sig (Elt Ideal) :=
  after ops10 (after ops9 (after ops8 (after ops7 (after ops6 (after ops5 (after ops4 (after ops3 (after ops2 (after ops1 (after ops0 (W)))))))))))

namespace B
open Cert.ReferenceIdeal.RefVal Cert.Spec A

variable {W V : Valuation τ sig (Elt Ideal)}

-- `V` holds the arguments as `W` does.
abbrev Same (W V : Valuation τ sig (Elt Ideal)) : Prop := ∀ b ∈ args, V b = W b

-- Operations that write no argument leave the arguments as they are in `W`.
theorem keep {l : List (HloOp τ sig (Elt Ideal))} (hl : l.Forall Good) (hs : Same W V) : Same W (after l V) :=
  fun b hb => (after_of_forall_not_mem l V fun op ho => (List.forall_iff_forall_mem.mp hl op ho).2.2 b hb).trans (hs b hb)

theorem step0 : after ops0 W main_v21 = Conv.rnd 0 (W main_arg0) (W main_arg2) (W main_arg3) (W main_arg4) Up.zeroMat := by
  after_results_simp
  rfl

theorem step1 {P} (hs : Same W V) (hp : V main_v21 = P) :
    after ops1 V main_v42 = Conv.rnd 1 (W main_arg0) (W main_arg2) (W main_arg3) (W main_arg4) P := by
  after_results_simp
  rw [hp, hs main_arg0 (by decide), hs main_arg2 (by decide), hs main_arg3 (by decide), hs main_arg4 (by decide)]
  rfl

theorem step2 {P} (hs : Same W V) (hp : V main_v42 = P) :
    after ops2 V main_v63 = Conv.rnd 2 (W main_arg0) (W main_arg2) (W main_arg3) (W main_arg4) P := by
  after_results_simp
  rw [hp, hs main_arg0 (by decide), hs main_arg2 (by decide), hs main_arg3 (by decide), hs main_arg4 (by decide)]
  rfl

theorem step3 {P} (hs : Same W V) (hp : V main_v63 = P) :
    after ops3 V main_v84 = Conv.rnd 3 (W main_arg0) (W main_arg2) (W main_arg3) (W main_arg4) P := by
  after_results_simp
  rw [hp, hs main_arg0 (by decide), hs main_arg2 (by decide), hs main_arg3 (by decide), hs main_arg4 (by decide)]
  rfl

theorem step4 {P} (hs : Same W V) (hp : V main_v84 = P) :
    after ops4 V main_v105 = Conv.rnd 4 (W main_arg0) (W main_arg2) (W main_arg3) (W main_arg4) P := by
  after_results_simp
  rw [hp, hs main_arg0 (by decide), hs main_arg2 (by decide), hs main_arg3 (by decide), hs main_arg4 (by decide)]
  rfl

theorem step5 {P} (hs : Same W V) (hp : V main_v105 = P) :
    after ops5 V main_v126 = Conv.rnd 5 (W main_arg0) (W main_arg2) (W main_arg3) (W main_arg4) P := by
  after_results_simp
  rw [hp, hs main_arg0 (by decide), hs main_arg2 (by decide), hs main_arg3 (by decide), hs main_arg4 (by decide)]
  rfl

theorem step6 {P} (hs : Same W V) (hp : V main_v126 = P) :
    after ops6 V main_v147 = Conv.rnd 6 (W main_arg0) (W main_arg2) (W main_arg3) (W main_arg4) P := by
  after_results_simp
  rw [hp, hs main_arg0 (by decide), hs main_arg2 (by decide), hs main_arg3 (by decide), hs main_arg4 (by decide)]
  rfl

theorem step7 {P} (hs : Same W V) (hp : V main_v147 = P) :
    after ops7 V main_v168 = Conv.rnd 7 (W main_arg0) (W main_arg2) (W main_arg3) (W main_arg4) P := by
  after_results_simp
  rw [hp, hs main_arg0 (by decide), hs main_arg2 (by decide), hs main_arg3 (by decide), hs main_arg4 (by decide)]
  rfl

theorem step8 {P} (hs : Same W V) (hp : V main_v168 = P) : after ops8 V main_v194 = Up.stage P (W main_arg5) (W main_arg6) := by
  after_results_simp
  rw [hp, hs main_arg5 (by decide), hs main_arg6 (by decide)]
  rfl

theorem step9 {P} (hs : Same W V) (hp : V main_v194 = P) :
    after ops9 V main_v225 = Up.stage (aff1 P (W main_arg1) (W main_arg7) (W main_arg8)) (W main_arg9) (W main_arg10) := by
  after_results_simp
  rw [hp, hs main_arg1 (by decide), hs main_arg7 (by decide), hs main_arg8 (by decide), hs main_arg9 (by decide), hs main_arg10 (by decide)]
  rfl

theorem step10 {P Q} (hs : Same W V) (hp : V main_v225 = P) (hq : V main_v194 = Q) :
    after ops10 V main_v256 = addf (F := Ideal) (s := S150000x128) (φ := .f32) (Up.stage (aff2 P (W main_arg11) (W main_arg12)) (W main_arg13) (W main_arg14)) Q := by
  after_results_simp
  rw [hp, hq, hs main_arg11 (by decide), hs main_arg12 (by decide), hs main_arg13 (by decide), hs main_arg14 (by decide)]
  rfl

-- List 9 does not write `main_v194`, which the last operation reads again.
theorem keep194 : after ops9 V main_v194 = V main_v194 := by
  after_results_simp

theorem chain (W : Valuation τ sig (Elt Ideal)) :
    Same W (foldB W) ∧ foldB W main_v256 = outS (W main_arg0) (W main_arg1) (W main_arg2) (W main_arg3) (W main_arg4) (W main_arg5) (W main_arg6) (W main_arg7) (W main_arg8) (W main_arg9) (W main_arg10) (W main_arg11) (W main_arg12) (W main_arg13) (W main_arg14) := by
  obtain ⟨g0, g1, g2, g3, g4, g5, g6, g7, g8, g9, g10⟩ := ok (F := Ideal)
  have s0 : Same W (after ops0 W) := keep g0 fun _ _ => rfl
  have s1 := keep g1 s0
  have s2 := keep g2 s1
  have s3 := keep g3 s2
  have s4 := keep g4 s3
  have s5 := keep g5 s4
  have s6 := keep g6 s5
  have s7 := keep g7 s6
  have s8 := keep g8 s7
  have s9 := keep g9 s8
  have l8 := step8 s7 (step7 s6 (step6 s5 (step5 s4 (step4 s3 (step3 s2 (step2 s1 (step1 s0 step0)))))))
  exact ⟨keep g10 s9, step10 s9 (step9 s8 l8) (keep194.trans l8)⟩

end B

theorem fold_result (W : Valuation τ sig (Elt Ideal)) :
    foldB W main_v256 = RefVal.outS (W main_arg0) (W main_arg1) (W main_arg2) (W main_arg3) (W main_arg4) (W main_arg5) (W main_arg6) (W main_arg7) (W main_arg8) (W main_arg9) (W main_arg10) (W main_arg11) (W main_arg12) (W main_arg13) (W main_arg14) :=
  (B.chain W).2

theorem fold_arg (W : Valuation τ sig (Elt Ideal)) (b : Ref sig .tc)
    (hb : b ∈ [main_arg0, main_arg1, main_arg2, main_arg3, main_arg4, main_arg5, main_arg6, main_arg7, main_arg8, main_arg9,
      main_arg10, main_arg11, main_arg12, main_arg13, main_arg14]) :
    foldB W (Proc.devRef .tc b) = W (Proc.devRef .tc b) :=
  (B.chain W).1 b hb

end Cert.ReferenceIdeal.HandRun

end
-- ==== Proof.LibGather.lean ====
import Idealize.ShloMosaic.PureOps
import Idealize.ShloMosaic.Lib.ValueIdx

noncomputable section

namespace Cert.LibGather

open Idealize.ShloMosaic Idealize.ShloMosaic.ValueIdx

abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1

  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl

  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.RefConv.lean ====
import proofs.«425338_j83640193122774_2_alg».proof.Proof.RefStages
import proofs.«425338_j83640193122774_2_alg».proof.Proof.LibGather
import proofs.«425338_j83640193122774_2_alg».proof.Proof.LibScatter
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefVal

open Idealize.ShloMosaic Idealize.ShloMosaic.ValueIdx Idealize.ShloMosaic.StackMember
open Cert.ReferenceIdeal Cert.ReferenceIdeal.Gen Cert.Spec

namespace Conv

variable (n w : BitVec 32) (k : Fin 8) (x0 : Mat 40000 128) (x x2 x3 : IMat 8 150000) (x4 : Ten 8 128 128)
  (prev : Mat 150000 128) (p r : Fin 150000) (j c : Fin 128)

-- Where the word is below zero the word plus the extent, else the word: negative indexing.
theorem select_wrap : Scalar.select (IntOp.cmpi .slt w 0#32) (IntOp.addi w n) w = wrap n w := by
  have e : IntOp.cmpi .slt w 0#32 = BitVec.ofBool (decide (w.toInt < 0)) := rfl
  unfold wrap
  rw [e]
  by_cases h : w.toInt < 0
  · rw [if_pos h, decide_eq_true h]; exact select_one _ _
  · rw [if_neg h, decide_eq_false h]; exact select_zero _ _

theorem rowOf_apply : rowOf k x (ix1 p) = x (ix2 k p) :=
  (shapeCast_dropUnit_apply ![150000] _ _ (ix1 p)).trans
    (extractStridedSlice_apply _ x (sl2 k) _ (ix2 k p) fun a => match a with
      | ⟨0, _⟩ => rfl
      | ⟨1, _⟩ => (Nat.zero_add _).symm)

theorem wrapCol_apply : wrapCol n k x (ix2 p (⟨0, Nat.one_pos⟩ : Fin 1)) = wrap n (x (ix2 k p)) := by
  refine (broadcastInDim_apply _ bcast_S150000_S150000x1_0 _ _ (ix1 p) fun a => ?_).trans ?_
  · match a with
    | ⟨0, _⟩ => exact (if_neg (show ¬(150000 : Nat) = 1 by decide)).symm
  · show Scalar.select (IntOp.cmpi .slt (rowOf k x (ix1 p)) 0#32) (IntOp.addi (rowOf k x (ix1 p)) n) (rowOf k x (ix1 p)) = _
    rw [rowOf_apply, select_wrap]

theorem wOf_apply : wOf k x4 (ix2 j c) = x4 (ix3 k j c) :=
  (shapeCast_dropUnit_apply ![128, 128] _ _ (ix2 j c)).trans
    (extractStridedSlice_apply _ x4 (sl3 k) _ (ix3 k j c) fun a => match a with
      | ⟨0, _⟩ => rfl
      | ⟨1, _⟩ => (Nat.zero_add _).symm
      | ⟨2, _⟩ => (Nat.zero_add _).symm)

-- After a round, entry (r, c) has gained the contributions of the pairs whose wrapped output word is r.
theorem rnd_apply : rnd k x0 x2 x3 x4 prev (ix2 r c) = prev (ix2 r c)
    + ∑ p ∈ Finset.univ.filter (fun p : Fin 150000 => (wrap 150000#32 (x3 (ix2 k p))).toInt = (r.val : ℤ)),
        contrib x0 x2 x4 k p c := by
  refine (Cert.LibScatter.scatterAdd_row_apply (N := 150000) (R := 150000) (C := 128)
    scatter_S150000x128_S150000x1_S150000x128_1_0_0_1_wf prev _ _ r c).trans ?_
  refine congrArg (prev (ix2 r c) + ·) (Finset.sum_congr (Finset.filter_congr fun p _ => by rw [wrapCol_apply]) fun p _ => ?_)
  refine (dotGeneral_plain_apply none _ _ p c).trans (Finset.sum_congr rfl fun j _ => ?_)
  rw [wOf_apply]
  exact congrArg (· * x4 (ix3 k j c)) ((Cert.LibGather.gather_row_apply (N := 40000) (R := 150000) (C := 128) (by decide)
    gather_S40000x128_S150000x1_S150000x128_1_0_n_n_0_1_1128_wf x0 _ p j).trans
    (congrArg (fun w : BitVec 32 => x0 (ix2 (⟨min w.toInt.toNat 39999, by omega⟩ : Fin 40000) j)) (wrapCol_apply _ k x2 p)))

end Conv

open Conv

-- The eight rounds onto the zero array are the sum over the eight offsets.
theorem conv_eq (x0 : Mat 40000 128) (x2 x3 : IMat 8 150000) (x4 : Ten 8 128 128) :
    conv8 x0 x2 x3 x4 = convM x0 x2 x3 x4 := by
  funext i
  obtain ⟨r, c, rfl⟩ : ∃ (r : Fin 150000) (c : Fin 128), i = ix2 r c := ⟨i 0, i 1, eq_ix2 i⟩
  unfold conv8
  iterate 8 rw [rnd_apply]
  rw [show Up.zeroMat (ix2 r c) = (0 : EReal) from Ideal.ofBits_zero_f32, zero_add]
  unfold convM Cert.Spec.conv
  rw [mat_ix2, Fin.sum_univ_eight]

end Cert.ReferenceIdeal.RefVal

end
-- ==== Proof.RefUp.lean ====
import proofs.«425338_j83640193122774_2_alg».proof.Proof.RefConv
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefVal

open Idealize.ShloMosaic Idealize.ShloMosaic.ValueIdx Idealize.ShloMosaic.StackMember
open Cert.ReferenceIdeal Cert.ReferenceIdeal.Gen Cert.Spec

namespace Up

theorem spread_apply (v : Row 128) (r : Fin 150000) (c : Fin 128) : spread v (ix2 r c) = v (ix1 c) := by
  unfold spread
  refine (broadcastInDim_apply _ bcast_S1x128_S150000x128_0_1 _ (ix2 r c) (ix2 (0 : Fin 1) c) (fun a => match a with
    | ⟨0, _⟩ => by show (0 : Nat) = if (1 : Nat) = 1 then 0 else r.val; rw [if_pos rfl]
    | ⟨1, _⟩ => by show c.val = if (128 : Nat) = 1 then 0 else c.val; rw [if_neg (by decide)])).trans ?_
  exact broadcastInDim_apply _ bcast_S128_S1x128_1 v (ix2 (0 : Fin 1) c) (ix1 c) (fun a => match a with
    | ⟨0, _⟩ => by show c.val = if (128 : Nat) = 1 then 0 else c.val; rw [if_neg (by decide)])

theorem zeroMat_apply (i : S150000x128.Idx) : zeroMat i = 0 := Ideal.ofBits_zero_f32

theorem colSum_apply (y : Mat 150000 128) (c : Fin 128) : colSum y (ix1 c) = ∑ r : Fin 150000, y (ix2 r c) := by
  unfold colSum
  simp only [Host.reduceAdd, Ideal.hostReduceAdd_def]
  rw [Ideal.hostReduceAdd_single reducesTo_S150000x128_S128_d0 (by decide)]
  refine (congrArg (· + _) (Ideal.ofBits_zero_f32)).trans ((zero_add _).trans ?_)
  refine Finset.sum_congr rfl fun k _ => ?_
  exact congrArg y (funext fun a => Fin.ext (by match a with | ⟨0, _⟩ => rfl | ⟨1, _⟩ => rfl))

theorem colMean_apply (y : Mat 150000 128) (c : Fin 128) : colMean y (ix1 c) = mean y c := by
  show Ideal.div (colSum y (ix1 c)) (Ideal.ofBits .f32 0x48127C00#32) = _
  rw [colSum_apply]; rfl

theorem dev_apply (h : Mat 150000 128) (r : Fin 150000) (c : Fin 128) : dev h (ix2 r c) = h (ix2 r c) - mean h c := by
  show h (ix2 r c) - spread (colMean h) (ix2 r c) = _
  rw [spread_apply, colMean_apply]

theorem invDev_apply (h : Mat 150000 128) (c : Fin 128) : invDev h (ix1 c) = Ideal.rsqrt (varTwoPass h c + eps) := by
  show Ideal.rsqrt (colMean (mulf (F := Ideal) (s := S150000x128) (φ := .f32) (dev h) (dev h)) (ix1 c)
    + Ideal.ofBits .f32 0x3727C5AC#32) = _
  rw [colMean_apply]
  refine congrArg (fun t => Ideal.rsqrt (Ideal.div t cnt + eps)) (Finset.sum_congr rfl fun r _ => ?_)
  show dev h (ix2 r c) * dev h (ix2 r c) = _
  rw [dev_apply]

-- The stage is the specification's normalise-scale-shift-clip with the two-pass variance.
theorem stage_eq (h : Mat 150000 128) (g b : Row 128) : stage h g b = mat (bnRelu (varTwoPass h) h g b) := by
  funext i
  obtain ⟨r, c, rfl⟩ : ∃ (r : Fin 150000) (c : Fin 128), i = ix2 r c := ⟨i 0, i 1, eq_ix2 i⟩
  show max (dev h (ix2 r c) * spread (invDev h) (ix2 r c) * spread g (ix2 r c) + spread b (ix2 r c)) (zeroMat (ix2 r c))
    = bnRelu (varTwoPass h) h g b r c
  rw [dev_apply, spread_apply, spread_apply, spread_apply, invDev_apply, zeroMat_apply]
  rfl

end Up

theorem up_eq (x0 : Mat 40000 128) (x2 x3 : IMat 8 150000) (x4 : Ten 8 128 128) (x5 x6 : Row 128) :
    upS x0 x2 x3 x4 x5 x6 = up varTwoPass x0 x2 x3 x4 x5 x6 := by
  unfold upS
  rw [conv_eq, Up.stage_eq]
  rfl

end Cert.ReferenceIdeal.RefVal

end
-- ==== Proof.RefH1n.lean ====
import proofs.«425338_j83640193122774_2_alg».proof.Proof.RefUp
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefVal

open Idealize.ShloMosaic Idealize.ShloMosaic.ValueIdx Idealize.ShloMosaic.StackMember
open Cert.ReferenceIdeal Cert.ReferenceIdeal.Gen Cert.Spec

namespace H1n

theorem sum_fin256_split (f : Fin 256 → EReal) :
    ∑ k : Fin 256, f k = ∑ j : Fin 128, f (⟨j.val, by have := j.isLt; omega⟩ : Fin 256)
      + ∑ j : Fin 128, f (⟨128 + j.val, by have := j.isLt; omega⟩ : Fin 256) :=
  Fin.sum_univ_add (a := 128) (b := 128) f

variable (u s : Mat 150000 128) (W : Mat 256 128) (b : Row 128) (r : Fin 150000) (c j : Fin 128)

theorem joined_left : joined u s (ix2 r (⟨j.val, by have := j.isLt; omega⟩ : Fin 256)) = u (ix2 r j) :=
  concatenate_pair_apply_left 1 u s concatenates_S150000x128_S150000x128_S150000x256_d1 _ rfl _ (fun b => by
    match b with
    | ⟨0, _⟩ => rfl
    | ⟨1, _⟩ => rfl)

theorem joined_right : joined u s (ix2 r (⟨128 + j.val, by have := j.isLt; omega⟩ : Fin 256)) = s (ix2 r j) :=
  concatenate_pair_apply_right 1 u s concatenates_S150000x128_S150000x128_S150000x256_d1 _ rfl rfl _
    (fun b hb => by
      match b with
      | ⟨0, _⟩ => rfl
      | ⟨1, _⟩ => exact absurd rfl hb)
    (by show j.val + 128 = 128 + j.val; omega)

-- The joined sum splits into the two halves of the weight; the bias row is spread over the fine rows.
theorem aff1_apply : aff1 u s W b (ix2 r c) = lin1 W b u s r c := by
  show Host.dotGeneral (F := Ideal) dot_S150000x256_S256x128_S150000x128_1_0_0_1_n_n none (joined u s) W (ix2 r c)
    + Up.spread b (ix2 r c) = _
  refine (congrArg₂ (· + ·) (dotGeneral_plain_apply none _ _ r c) (Up.spread_apply b r c)).trans ?_
  rw [sum_fin256_split]
  simp only [joined_left, joined_right]
  rfl

end H1n

variable (x0 : Mat 40000 128) (x1 : Mat 150000 128) (x2 x3 : IMat 8 150000) (x4 : Ten 8 128 128) (x5 x6 : Row 128)
  (x7 : Mat 256 128) (x8 x9 x10 : Row 128)

theorem h1_eq : h1S x0 x1 x2 x3 x4 x5 x6 x7 x8 = h1 varTwoPass x0 x1 x2 x3 x4 x5 x6 x7 x8 := by
  funext i
  obtain ⟨r, c, rfl⟩ : ∃ (r : Fin 150000) (c : Fin 128), i = ix2 r c := ⟨i 0, i 1, eq_ix2 i⟩
  unfold h1S
  rw [H1n.aff1_apply, up_eq]
  rfl

-- The second normalisation is the same operations as the first, on the first hidden array.
theorem h1n_eq : h1nS x0 x1 x2 x3 x4 x5 x6 x7 x8 x9 x10 = h1n varTwoPass x0 x1 x2 x3 x4 x5 x6 x7 x8 x9 x10 := by
  unfold h1nS
  rw [h1_eq, Up.stage_eq]
  rfl

end Cert.ReferenceIdeal.RefVal

end
-- ==== Proof.RefOut.lean ====
import proofs.«425338_j83640193122774_2_alg».proof.Proof.RefH1n
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefVal

open Idealize.ShloMosaic Idealize.ShloMosaic.ValueIdx Idealize.ShloMosaic.StackMember
open Cert.ReferenceIdeal Cert.ReferenceIdeal.Gen Cert.Spec

variable (x0 : Mat 40000 128) (x1 : Mat 150000 128) (x2 x3 : IMat 8 150000) (x4 : Ten 8 128 128) (x5 x6 : Row 128)
  (x7 : Mat 256 128) (x8 x9 x10 : Row 128) (x11 : Mat 128 128) (x12 x13 x14 : Row 128)

theorem aff2_apply (h : Mat 150000 128) (W : Mat 128 128) (b : Row 128) (r : Fin 150000) (c : Fin 128) :
    aff2 h W b (ix2 r c) = lin2 W b h r c :=
  congrArg₂ (· + ·) (dotGeneral_plain_apply none _ _ r c) (Up.spread_apply b r c)

theorem h2_eq : h2S x0 x1 x2 x3 x4 x5 x6 x7 x8 x9 x10 x11 x12 = h2 varTwoPass x0 x1 x2 x3 x4 x5 x6 x7 x8 x9 x10 x11 x12 := by
  funext i
  obtain ⟨r, c, rfl⟩ : ∃ (r : Fin 150000) (c : Fin 128), i = ix2 r c := ⟨i 0, i 1, eq_ix2 i⟩
  unfold h2S
  rw [aff2_apply, h1n_eq]
  rfl

-- The third normalisation is the same operations again, on the second hidden array; the up-sampled features are added.
theorem out_eq : outS x0 x1 x2 x3 x4 x5 x6 x7 x8 x9 x10 x11 x12 x13 x14 = out varTwoPass x0 x1 x2 x3 x4 x5 x6 x7 x8 x9 x10 x11 x12 x13 x14 := by
  unfold outS
  rw [h2_eq, Up.stage_eq, up_eq]
  rfl

end Cert.ReferenceIdeal.RefVal

end
-- ==== Proof.RefRun.lean ====
import proofs.«425338_j83640193122774_2_alg».proof.Proof.RefRunA
import proofs.«425338_j83640193122774_2_alg».proof.Proof.RefRunB
import proofs.«425338_j83640193122774_2_alg».proof.Proof.RefOut

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Spec

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v256) = out varTwoPass (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have ha : ∀ b (hb : b ∈ A.args), _ = launchContents m c (Proc.devRef .tc b) := fun b hb => (h c b).trans (fold_arg _ b hb)
    ⟨((h c main_v256).trans (fold_result _)).trans (Cert.ReferenceIdeal.RefVal.out_eq _ _ _ _ _ _ _ _ _ _ _ _ _ _ _),
      ha main_arg0 (by simp), ha main_arg1 (by simp), ha main_arg2 (by simp), ha main_arg3 (by simp), ha main_arg4 (by simp),
      ha main_arg5 (by simp), ha main_arg6 (by simp), ha main_arg7 (by simp), ha main_arg8 (by simp), ha main_arg9 (by simp),
      ha main_arg10 (by simp), ha main_arg11 (by simp), ha main_arg12 (by simp), ha main_arg13 (by simp), ha main_arg14 (by simp)⟩)
    (run_fold (F := Ideal) m ρ)

end Cert.ReferenceIdeal.HandRun

end
-- ==== Proof.lean ====
import proofs.«425338_j83640193122774_2_alg».proof.Defs
import proofs.«425338_j83640193122774_2_alg».proof.Proof.Gen.Kernel
import proofs.«425338_j83640193122774_2_alg».proof.Proof.Gen.Kernel.Frame
import proofs.«425338_j83640193122774_2_alg».proof.Proof.Gen.KernelIdeal
import proofs.«425338_j83640193122774_2_alg».proof.Proof.Gen.KernelIdeal.Frame
import proofs.«425338_j83640193122774_2_alg».proof.Proof.Gen.ReferenceIdeal
import proofs.«425338_j83640193122774_2_alg».proof.Proof.Gen.Pre_finite_inputs
import proofs.«425338_j83640193122774_2_alg».proof.Proof.KRun
import proofs.«425338_j83640193122774_2_alg».proof.Proof.KChainB
import proofs.«425338_j83640193122774_2_alg».proof.Proof.Alg
import proofs.«425338_j83640193122774_2_alg».proof.Proof.PreDecode
import proofs.«425338_j83640193122774_2_alg».proof.Proof.RefRun
import Idealize.ShloMosaic.Adequacy
import Idealize.ShloMosaic.Init

set_option maxRecDepth 16384

noncomputable section

namespace Cert.Proof

open Idealize.ShloMosaic Idealize.SL.Sem Cert.Spec Cert.KernelIdeal.Val

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run_spec m ρ)

-- The kernel computes the chain with one-pass variances, the reference with two-pass ones; on real inputs they agree.
theorem algebraic : Cert.algebraic_KernelIdeal_ReferenceIdeal := by
  intro m ρ m' ρ' hpre hagree
  refine ⟨fun c => out varTwoPass (aX m c) (aSkip m c) (aPin m c) (aPout m c) (aWup m c) (aG0 m c) (aB0 m c) (aW1 m c) (aB1 m c)
    (aG1 m c) (aBe1 m c) (aW2 m c) (aB2 m c) (aG2 m c) (aBe2 m c), ?_, ?_⟩
  · refine (θ_run Cert.KernelIdeal.defs _ _).mono (fun r h c => ⟨(h c).1.trans ?_, (h c).2⟩)
      (Cert.KernelIdeal.Gen.run_named (F := Ideal) m ρ)
    obtain ⟨f0, f1, hin, f4, f5, f6, f7, f8, f9, f10, f11, f12, -, -⟩ := Cert.PreDecode.of_pre _ _ _ _ _ _ _ _ _ _ _ _ _ _ _ (hpre c)
    exact (Cert.KernelIdeal.Val.W10_result m ρ c hin).trans
      (out_onePass_eq_twoPass _ _ _ _ _ _ _ _ _ _ _ _ _ _ _ f0 f1 f4 f5 f6 f7 f8 f9 f10 f11 f12)
  · refine (θ_run Cert.ReferenceIdeal.defs _ _).mono (fun r h c => ⟨(h c).1.trans ?_, (h c).2⟩)
      (Cert.ReferenceIdeal.HandRun.run_spec m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
